-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S16x512x64x64 : Shape := ⟨4, ![16, 512, 64, 64]⟩
abbrev S16x1024x32x32 : Shape := ⟨4, ![16, 1024, 32, 32]⟩
abbrev S256 : Shape := ⟨1, ![256]⟩
abbrev S256x256 : Shape := ⟨2, ![256, 256]⟩
abbrev S512x256 : Shape := ⟨2, ![512, 256]⟩
abbrev S1024x256 : Shape := ⟨2, ![1024, 256]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  bcast_S_S16x1024x32x32 : S_.BroadcastsInDim S16x1024x32x32 (![] : Fin 0 → Fin S16x1024x32x32.rank)
  reducesTo_S16x1024x32x32_S_d0_1_2_3 : S16x1024x32x32.ReducesTo [0, 1, 2, 3] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn_part5 {F : FTy → Type} [FloatOps F] (main_arg4 : IVec S256 32) (main_arg5 : IVec S256 32) (main_v81 : IVec S_ 1) (main_v83 : IVec S256 1) (main_c_33 : IVec S_ 1) : IVec S_ 1 :=
  let main_v84 : IVec S_ 1 := (fun x v => Host.reduce IntOp.andi x v reducesTo_S256_S_d0 h_S_) main_v83 main_c_33
  let main_v85 : IVec S_ 1 := andi main_v81 main_v84
  let main_c_34 : IVec S_ 32 := constantI S_ 32 4096#32
  let main_v86 : IVec S256 32 := broadcastInDim S256 ![] bcast_S_S256 main_c_34
  let main_v87 : IVec S256 1 := cmpi .slt main_arg4 main_v86
  let main_c_35 : IVec S_ 1 := constantI S_ 1 1#1
  let main_v88 : IVec S_ 1 := (fun x v => Host.reduce IntOp.andi x v reducesTo_S256_S_d0 h_S_) main_v87 main_c_35
  let main_v89 : IVec S_ 1 := andi main_v85 main_v88
  let main_c_36 : IVec S_ 32 := constantI S_ 32 0#32
  let main_v90 : IVec S256 32 := broadcastInDim S256 ![] bcast_S_S256 main_c_36
  let main_v91 : IVec S256 1 := cmpi .sge main_arg5 main_v90
  let main_c_37 : IVec S_ 1 := constantI S_ 1 1#1
  let main_v92 : IVec S_ 1 := (fun x v => Host.reduce IntOp.andi x v reducesTo_S256_S_d0 h_S_) main_v91 main_c_37
  let main_v93 : IVec S_ 1 := andi main_v89 main_v92
  let main_c_38 : IVec S_ 32 := constantI S_ 32 1024#32
  let main_v94 : IVec S256 32 := broadcastInDim S256 ![] bcast_S_S256 main_c_38
  let main_v95 : IVec S256 1 := cmpi .slt main_arg5 main_v94
  let main_c_39 : IVec S_ 1 := constantI S_ 1 1#1
  let main_v96 : IVec S_ 1 := (fun x v => Host.reduce IntOp.andi x v reducesTo_S256_S_d0 h_S_) main_v95 main_c_39
  let main_v97 : IVec S_ 1 := andi main_v93 main_v96
  main_v97

def fn_part4 {F : FTy → Type} [FloatOps F] (main_arg3 : IVec S256 32) (main_arg4 : IVec S256 32) (main_arg5 : IVec S256 32) (main_arg17 : FVec F S256 .f32) (main_v63 : IVec S_ 1) (main_v67 : IVec S_ 1) : IVec S_ 1 :=
  let main_v68 : IVec S_ 1 := andi main_v63 main_v67
  let main_v69 : FVec F S256 .f32 := Host.absf main_arg17
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_c_28 : IVec S_ 32 := constantI S_ 32 0#32
  let main_v74 : IVec S256 32 := broadcastInDim S256 ![] bcast_S_S256 main_c_28
  let main_v75 : IVec S256 1 := cmpi .sge main_arg3 main_v74
  let main_c_29 : IVec S_ 1 := constantI S_ 1 1#1
  let main_v76 : IVec S_ 1 := (fun x v => Host.reduce IntOp.andi x v reducesTo_S256_S_d0 h_S_) main_v75 main_c_29
  let main_v77 : IVec S_ 1 := andi main_v73 main_v76
  let main_c_30 : IVec S_ 32 := constantI S_ 32 16384#32
  let main_v78 : IVec S256 32 := broadcastInDim S256 ![] bcast_S_S256 main_c_30
  let main_v79 : IVec S256 1 := cmpi .slt main_arg3 main_v78
  let main_c_31 : IVec S_ 1 := constantI S_ 1 1#1
  let main_v80 : IVec S_ 1 := (fun x v => Host.reduce IntOp.andi x v reducesTo_S256_S_d0 h_S_) main_v79 main_c_31
  let main_v81 : IVec S_ 1 := andi main_v77 main_v80
  let main_c_32 : IVec S_ 32 := constantI S_ 32 0#32
  let main_v82 : IVec S256 32 := broadcastInDim S256 ![] bcast_S_S256 main_c_32
  let main_v83 : IVec S256 1 := cmpi .sge main_arg4 main_v82
  let main_c_33 : IVec S_ 1 := constantI S_ 1 1#1
  fn_part5 (F := F) main_arg4 main_arg5 main_v81 main_v83 main_c_33

def fn_part3 {F : FTy → Type} [FloatOps F] (main_arg3 : IVec S256 32) (main_arg4 : IVec S256 32) (main_arg5 : IVec S256 32) (main_arg14 : FVec F S1024x256 .f32) (main_arg15 : FVec F S256 .f32) (main_arg16 : FVec F S256x256 .f32) (main_arg17 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S1024x256 .f32 := Host.absf main_arg14
  let main_cst_20 : FVec F S_ .f32 := constant S_ .f32 0x7F800000#32
  let main_v55 : FVec F S1024x256 .f32 := broadcastInDim S1024x256 ![] bcast_S_S1024x256 main_cst_20
  let main_v56 : IVec S1024x256 1 := cmpf .olt main_v54 main_v55
  let main_c_21 : IVec S_ 1 := constantI S_ 1 1#1
  let main_v57 : IVec S_ 1 := (fun x v => Host.reduce IntOp.andi x v reducesTo_S1024x256_S_d0_1 h_S_) main_v56 main_c_21
  let main_v58 : IVec S_ 1 := andi main_v53 main_v57
  let main_v59 : FVec F S256 .f32 := Host.absf main_arg15
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg16
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg3 main_arg4 main_arg5 main_arg17 main_v63 main_v67

def fn_part2 {F : FTy → Type} [FloatOps F] (main_arg3 : IVec S256 32) (main_arg4 : IVec S256 32) (main_arg5 : IVec S256 32) (main_arg10 : FVec F S512x256 .f32) (main_arg11 : FVec F S256 .f32) (main_arg12 : FVec F S256x256 .f32) (main_arg13 : FVec F S256 .f32) (main_arg14 : FVec F S1024x256 .f32) (main_arg15 : FVec F S256 .f32) (main_arg16 : FVec F S256x256 .f32) (main_arg17 : FVec F S256 .f32) (main_v33 : IVec S_ 1) : IVec S_ 1 :=
  let main_v34 : FVec F S512x256 .f32 := Host.absf main_arg10
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg12
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg13
  let main_cst_18 : FVec F S_ .f32 := constant S_ .f32 0x7F800000#32
  let main_v50 : FVec F S256 .f32 := broadcastInDim S256 ![] bcast_S_S256 main_cst_18
  fn_part3 (F := F) main_arg3 main_arg4 main_arg5 main_arg14 main_arg15 main_arg16 main_arg17 main_v48 main_v49 main_v50

def fn_part1 {F : FTy → Type} [FloatOps F] (main_arg3 : IVec S256 32) (main_arg4 : IVec S256 32) (main_arg5 : IVec S256 32) (main_arg7 : FVec F S256 .f32) (main_arg8 : FVec F S256x256 .f32) (main_arg9 : FVec F S256 .f32) (main_arg10 : FVec F S512x256 .f32) (main_arg11 : FVec F S256 .f32) (main_arg12 : FVec F S256x256 .f32) (main_arg13 : FVec F S256 .f32) (main_arg14 : FVec F S1024x256 .f32) (main_arg15 : FVec F S256 .f32) (main_arg16 : FVec F S256x256 .f32) (main_arg17 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg8
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg3 main_arg4 main_arg5 main_arg10 main_arg11 main_arg12 main_arg13 main_arg14 main_arg15 main_arg16 main_arg17 main_v33

def fn {F : FTy → Type} [FloatOps F] (main_arg0 : FVec F S16x256x128x128 .f32) (main_arg1 : FVec F S16x512x64x64 .f32) (main_arg2 : FVec F S16x1024x32x32 .f32) (main_arg3 : IVec S256 32) (main_arg4 : IVec S256 32) (main_arg5 : IVec S256 32) (main_arg6 : FVec F S256x256 .f32) (main_arg7 : FVec F S256 .f32) (main_arg8 : FVec F S256x256 .f32) (main_arg9 : FVec F S256 .f32) (main_arg10 : FVec F S512x256 .f32) (main_arg11 : FVec F S256 .f32) (main_arg12 : FVec F S256x256 .f32) (main_arg13 : FVec F S256 .f32) (main_arg14 : FVec F S1024x256 .f32) (main_arg15 : FVec F S256 .f32) (main_arg16 : FVec F S256x256 .f32) (main_arg17 : FVec F S256 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  let main_v4 : FVec F S16x512x64x64 .f32 := Host.absf main_arg1
  let main_cst_0 : FVec F S_ .f32 := constant S_ .f32 0x7F800000#32
  let main_v5 : FVec F S16x512x64x64 .f32 := broadcastInDim S16x512x64x64 ![] bcast_S_S16x512x64x64 main_cst_0
  let main_v6 : IVec S16x512x64x64 1 := cmpf .olt main_v4 main_v5
  let main_c_1 : IVec S_ 1 := constantI S_ 1 1#1
  let main_v7 : IVec S_ 1 := (fun x v => Host.reduce IntOp.andi x v reducesTo_S16x512x64x64_S_d0_1_2_3 h_S_) main_v6 main_c_1
  let main_v8 : IVec S_ 1 := andi main_v3 main_v7
  let main_v9 : FVec F S16x1024x32x32 .f32 := Host.absf main_arg2
  let main_cst_2 : FVec F S_ .f32 := constant S_ .f32 0x7F800000#32
  let main_v10 : FVec F S16x1024x32x32 .f32 := broadcastInDim S16x1024x32x32 ![] bcast_S_S16x1024x32x32 main_cst_2
  let main_v11 : IVec S16x1024x32x32 1 := cmpf .olt main_v9 main_v10
  let main_c_3 : IVec S_ 1 := constantI S_ 1 1#1
  let main_v12 : IVec S_ 1 := (fun x v => Host.reduce IntOp.andi x v reducesTo_S16x1024x32x32_S_d0_1_2_3 h_S_) main_v11 main_c_3
  let main_v13 : IVec S_ 1 := andi main_v8 main_v12
  let main_v14 : FVec F S256x256 .f32 := Host.absf main_arg6
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg3 main_arg4 main_arg5 main_arg7 main_arg8 main_arg9 main_arg10 main_arg11 main_arg12 main_arg13 main_arg14 main_arg15 main_arg16 main_arg17 main_v13 main_v16
-- ==== Kernel.lean ====
abbrev S16x256x128x128 : Shape := ⟨4, ![16, 256, 128, 128]⟩
abbrev S16x512x64x64 : Shape := ⟨4, ![16, 512, 64, 64]⟩
abbrev S16x1024x32x32 : Shape := ⟨4, ![16, 1024, 32, 32]⟩
abbrev S256 : Shape := ⟨1, ![256]⟩
abbrev S256x256 : Shape := ⟨2, ![256, 256]⟩
abbrev S512x256 : Shape := ⟨2, ![512, 256]⟩
abbrev S1024x256 : Shape := ⟨2, ![1024, 256]⟩
abbrev S16x256x16384 : Shape := ⟨3, ![16, 256, 16384]⟩
abbrev S256x1 : Shape := ⟨2, ![256, 1]⟩
abbrev S256x16384 : Shape := ⟨2, ![256, 16384]⟩
abbrev S16x256x256 : Shape := ⟨3, ![16, 256, 256]⟩
abbrev S1x256x8192 : Shape := ⟨3, ![1, 256, 8192]⟩
abbrev S1x256x256 : Shape := ⟨3, ![1, 256, 256]⟩
abbrev S256x8192 : Shape := ⟨2, ![256, 8192]⟩
abbrev S1x256 : Shape := ⟨2, ![1, 256]⟩
abbrev S4096x256 : Shape := ⟨2, ![4096, 256]⟩
abbrev S16x512x4096 : Shape := ⟨3, ![16, 512, 4096]⟩
abbrev S256x4096 : Shape := ⟨2, ![256, 4096]⟩
abbrev S1x512x4096 : Shape := ⟨3, ![1, 512, 4096]⟩
abbrev S512x4096 : Shape := ⟨2, ![512, 4096]⟩
abbrev S16x1024x1024 : Shape := ⟨3, ![16, 1024, 1024]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 48
  | .vmem => 30
  | .smem => 0
  | _ => 0

abbrev bufTy : (tb : Table) → Fin (tcTables nBuf tb) → BufTy
  | .hbm, ⟨0, _⟩ => ⟨S16x256x128x128, .f32⟩
  | .hbm, ⟨1, _⟩ => ⟨S16x512x64x64, .f32⟩
  | .hbm, ⟨2, _⟩ => ⟨S16x1024x32x32, .f32⟩
  | .hbm, ⟨3, _⟩ => ⟨S256, .i32⟩
  | .hbm, ⟨4, _⟩ => ⟨S256, .i32⟩
  | .hbm, ⟨5, _⟩ => ⟨S256, .i32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S512x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S1024x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S16x256x16384, .f32⟩
  | .hbm, ⟨19, _⟩ => ⟨S256x1, .i32⟩
  | .hbm, ⟨20, _⟩ => ⟨S256x16384, .i32⟩
  | .hbm, ⟨21, _⟩ => ⟨S256x16384, .i32⟩
  | .hbm, ⟨22, _⟩ => ⟨S256x16384, .i1⟩
  | .hbm, ⟨23, _⟩ => ⟨S256x16384, .bf16⟩
  | .hbm, ⟨24, _⟩ => ⟨S256x1, .f32⟩
  | .hbm, ⟨25, _⟩ => ⟨S256x1, .f32⟩
  | .hbm, ⟨26, _⟩ => ⟨S16x256x256, .f32⟩
  | .hbm, ⟨27, _⟩ => ⟨S4096x256, .f32⟩
  | .hbm, ⟨28, _⟩ => ⟨S16x512x4096, .f32⟩
  | .hbm, ⟨29, _⟩ => ⟨S256x1, .i32⟩
  | .hbm, ⟨30, _⟩ => ⟨S256x4096, .i32⟩
  | .hbm, ⟨31, _⟩ => ⟨S256x4096, .i32⟩
  | .hbm, ⟨32, _⟩ => ⟨S256x4096, .i1⟩
  | .hbm, ⟨33, _⟩ => ⟨S256x4096, .bf16⟩
  | .hbm, ⟨34, _⟩ => ⟨S256x1, .f32⟩
  | .hbm, ⟨35, _⟩ => ⟨S256x1, .f32⟩
  | .hbm, ⟨36, _⟩ => ⟨S16x256x256, .f32⟩
  | .hbm, ⟨37, _⟩ => ⟨S4096x256, .f32⟩
  | .hbm, ⟨38, _⟩ => ⟨S16x1024x1024, .f32⟩
  | .hbm, ⟨39, _⟩ => ⟨S256x1, .i32⟩
  | .hbm, ⟨40, _⟩ => ⟨S256x1024, .i32⟩
  | .hbm, ⟨41, _⟩ => ⟨S256x1024, .i32⟩
  | .hbm, ⟨42, _⟩ => ⟨S256x1024, .i1⟩
  | .hbm, ⟨43, _⟩ => ⟨S256x1024, .bf16⟩
  | .hbm, ⟨44, _⟩ => ⟨S256x1, .f32⟩
  | .hbm, ⟨45, _⟩ => ⟨S256x1, .f32⟩
  | .hbm, ⟨46, _⟩ => ⟨S16x256x256, .f32⟩
  | .hbm, ⟨47, _⟩ => ⟨S4096x256, .f32⟩
  | .local _ .vmem, ⟨0, _⟩ => ⟨S1x256x8192, .f32⟩
  | .local _ .vmem, ⟨1, _⟩ => ⟨S1x256x8192, .f32⟩
  | .local _ .vmem, ⟨2, _⟩ => ⟨S256x16384, .bf16⟩
  | .local _ .vmem, ⟨3, _⟩ => ⟨S256x256, .f32⟩
  | .local _ .vmem, ⟨4, _⟩ => ⟨S256x1, .f32⟩
  | .local _ .vmem, ⟨5, _⟩ => ⟨S256x256, .f32⟩
  | .local _ .vmem, ⟨6, _⟩ => ⟨S256x1, .f32⟩
  | .local _ .vmem, ⟨7, _⟩ => ⟨S1x256x256, .f32⟩
  | .local _ .vmem, ⟨8, _⟩ => ⟨S1x256x256, .f32⟩
  | .local _ .vmem, ⟨9, _⟩ => ⟨S256x256, .f32⟩
  | .local _ .vmem, ⟨10, _⟩ => ⟨S1x512x4096, .f32⟩
  | .local _ .vmem, ⟨11, _⟩ => ⟨S1x512x4096, .f32⟩
  | .local _ .vmem, ⟨12, _⟩ => ⟨S256x4096, .bf16⟩
  | .local _ .vmem, ⟨13, _⟩ => ⟨S512x256, .f32⟩
  | .local _ .vmem, ⟨14, _⟩ => ⟨S256x1, .f32⟩
  | .local _ .vmem, ⟨15, _⟩ => ⟨S256x256, .f32⟩
  | .local _ .vmem, ⟨16, _⟩ => ⟨S256x1, .f32⟩
  | .local _ .vmem, ⟨17, _⟩ => ⟨S1x256x256, .f32⟩
  | .local _ .vmem, ⟨18, _⟩ => ⟨S1x256x256, .f32⟩
  | .local _ .vmem, ⟨19, _⟩ => ⟨S512x256, .f32⟩
  | .local _ .vmem, ⟨20, _⟩ => ⟨S1x1024x1024, .f32⟩
  | .local _ .vmem, ⟨21, _⟩ => ⟨S1x1024x1024, .f32⟩
  | .local _ .vmem, ⟨22, _⟩ => ⟨S256x1024, .bf16⟩
  | .local _ .vmem, ⟨23, _⟩ => ⟨S1024x256, .f32⟩
  | .local _ .vmem, ⟨24, _⟩ => ⟨S256x1, .f32⟩
  | .local _ .vmem, ⟨25, _⟩ => ⟨S256x256, .f32⟩
  | .local _ .vmem, ⟨26, _⟩ => ⟨S256x1, .f32⟩
  | .local _ .vmem, ⟨27, _⟩ => ⟨S1x256x256, .f32⟩
  | .local _ .vmem, ⟨28, _⟩ => ⟨S1x256x256, .f32⟩
  | .local _ .vmem, ⟨29, _⟩ => ⟨S1024x256, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c8192_i32 : BitVec 32 := 8192#32
  let v3 : BitVec 32 := Scalar.muli arg1 c8192_i32
  v3
def k0_off1 (i : grid0.Coords) : Fin 2 → Nat :=
  let c0 : Index := 0#32
  let arg1 : BitVec 32 := BitVec.ofNat 32 (i 1).val
  let c8192_i32 : BitVec 32 := 8192#32
  let v3 : BitVec 32 := Scalar.muli arg1 c8192_i32
  let v4 : BitVec 32 := v3
  let v5 : Index := Scalar.indexCast v4
  ![0, v5.toNat]
def k0_cond2 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_8 : BitVec 32 := 0#32
  let v19 : BitVec 1 := Scalar.cmpi .ne v18 c0_i32_8
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![16, 1], ![false, false]⟩

def k1_mult1 (i : grid1.Coords) : BitVec 32 :=
  let arg1 : BitVec 32 := BitVec.ofNat 32 (i 1).val
  let c4096_i32 : BitVec 32 := 4096#32
  let v3 : BitVec 32 := Scalar.muli arg1 c4096_i32
  v3
def k1_off1 (i : grid1.Coords) : Fin 2 → Nat :=
  let c0 : Index := 0#32
  let arg1 : BitVec 32 := BitVec.ofNat 32 (i 1).val
  let c4096_i32 : BitVec 32 := 4096#32
  let v3 : BitVec 32 := Scalar.muli arg1 c4096_i32
  let v4 : BitVec 32 := v3
  let v5 : Index := Scalar.indexCast v4
  ![0, v5.toNat]
def k1_cond2 (i : grid1.Coords) : BitVec 1 :=
  let arg1 : BitVec 32 := BitVec.ofNat 32 (i 1).val
  let c0_i32_8 : BitVec 32 := 0#32
  let v17 : BitVec 1 := Scalar.cmpi .eq arg1 c0_i32_8
  let v18 : BitVec 32 := Scalar.extui v17
  let c0_i32_9 : BitVec 32 := 0#32
  let v19 : BitVec 1 := Scalar.cmpi .ne v18 c0_i32_9
  v19

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![16, 1], ![false, false]⟩

def k2_mult1 (i : grid2.Coords) : BitVec 32 :=
  let arg1 : BitVec 32 := BitVec.ofNat 32 (i 1).val
  let c1024_i32 : BitVec 32 := 1024#32
  let v3 : BitVec 32 := Scalar.muli arg1 c1024_i32
  v3
def k2_off1 (i : grid2.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k2_cond2 (i : grid2.Coords) : BitVec 1 :=
  let arg1 : BitVec 32 := BitVec.ofNat 32 (i 1).val
  let c0_i32_8 : BitVec 32 := 0#32
  let v17 : BitVec 1 := Scalar.cmpi .eq arg1 c0_i32_8
  let v18 : BitVec 32 := Scalar.extui v17
  let c0_i32_9 : BitVec 32 := 0#32
  let v19 : BitVec 1 := Scalar.cmpi .ne v18 c0_i32_9
  v19

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S256x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1024x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S256x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S256x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x256x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  shapeCasts_S16x256x128x128_S16x256x16384 : S16x256x128x128.ShapeCasts S16x256x16384
  shapeCasts_S256_S256x1 : S256.ShapeCasts S256x1
  bcast_S256x1_S256x16384_0_1 : S256x1.BroadcastsInDim S256x16384 (![0, 1] : Fin 2 → Fin S256x16384.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  h_S256x8192 : 0 < S256x8192.numel
  shapeCasts_S256x8192_S256x8192 : S256x8192.ShapeCasts S256x8192
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  bitsLt_bf16_f32 : FTy.bits .bf16 < FTy.bits .f32
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x256 : S256x1.Broadcasts S256x256
  reduces_S256x256_S256 : S256x256.Reduces [0] S256
  shapeCasts_S256_S1x256 : S256.ShapeCasts S1x256
  broadcasts_S1x256_S256x256 : S1x256.Broadcasts S256x256
  transposes_S256x256_p1_0_S256x256 : S256x256.Transposes [1, 0] S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  shapeCasts_S16x256x256_S4096x256 : S16x256x256.ShapeCasts S4096x256
  shapeCasts_S16x512x64x64_S16x512x4096 : S16x512x64x64.ShapeCasts S16x512x4096
  bcast_S256x1_S256x4096_0_1 : S256x1.BroadcastsInDim S256x4096 (![0, 1] : Fin 2 → Fin S256x4096.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  h_S256x4096 : 0 < S256x4096.numel
  shapeCasts_S256x4096_S256x4096 : S256x4096.ShapeCasts S256x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S16x1024x32x32_S16x1024x1024 : S16x1024x32x32.ShapeCasts S16x1024x1024
  bcast_S256x1_S256x1024_0_1 : S256x1.BroadcastsInDim S256x1024 (![0, 1] : Fin 2 → Fin S256x1024.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  h_S256x1024 : 0 < S256x1024.numel
  shapeCasts_S256x1024_S256x1024 : S256x1024.ShapeCasts S256x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  dot_S256x8192_S256x8192_S256x256_1_1_0_0_n_n_wf : DotDims.WF S256x8192 S256x8192 S256x256 [1] [1] [0] [0] [] []
  dot_S256x256_S256x256_S256x256_0_0_1_1_n_n_wf : DotDims.WF S256x256 S256x256 S256x256 [0] [0] [1] [1] [] []
  dot_S512x4096_S256x4096_S512x256_1_1_0_0_n_n_wf : DotDims.WF S512x4096 S256x4096 S512x256 [1] [1] [0] [0] [] []
  dot_S512x256_S512x256_S256x256_0_0_1_1_n_n_wf : DotDims.WF S512x256 S512x256 S256x256 [0] [0] [1] [1] [] []
  dot_S1024x1024_S256x1024_S1024x256_1_1_0_0_n_n_wf : DotDims.WF S1024x1024 S256x1024 S1024x256 [1] [1] [0] [0] [] []
  dot_S1024x256_S1024x256_S256x256_0_0_1_1_n_n_wf : DotDims.WF S1024x256 S1024x256 S256x256 [0] [0] [1] [1] [] []
  hrank0 : 0 < grid0.rank
  k0_mult1_dvd : ∀ i : grid0.Coords, 128 ∣ (k0_mult1 i).toNat
  k0_off1_inb : ∀ i : grid0.Coords, ∀ a, (k0_off1 i) a + S256x8192.size a ≤ S256x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8192.size a ≤ S16x256x16384.size a
  hwx0_0 : ∀ i : grid0.Coords, EltTy.bits .f32 = 32 ∨ (Rect.block (s := S16x256x16384) S1x256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16384.size a ≤ S256x16384.size a
  hwx0_1 : ∀ i : grid0.Coords, EltTy.bits .bf16 = 32 ∨ (Rect.block (s := S256x16384) S256x16384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x256.size a ≤ S16x256x256.size a
  hwx0_6 : ∀ i : grid0.Coords, EltTy.bits .f32 = 32 ∨ (Rect.block (s := S16x256x256) S1x256x256.size (cc0_transform_6 i) (hinb0_6 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S256x4096.size a ≤ S256x4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x4096.size a ≤ S16x512x4096.size a
  hwx1_0 : ∀ i : grid1.Coords, EltTy.bits .f32 = 32 ∨ (Rect.block (s := S16x512x4096) S1x512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S256x4096.size a
  hwx1_1 : ∀ i : grid1.Coords, EltTy.bits .bf16 = 32 ∨ (Rect.block (s := S256x4096) S256x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .f32 = 32 ∨ (Rect.block (s := S512x256) S512x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .f32 = 32 ∨ (Rect.block (s := S256x1) S256x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S256x1.size a
  hwx1_5 : ∀ i : grid1.Coords, EltTy.bits .f32 = 32 ∨ (Rect.block (s := S256x1) S256x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x256.size a ≤ S16x256x256.size a
  hwx1_6 : ∀ i : grid1.Coords, EltTy.bits .f32 = 32 ∨ (Rect.block (s := S16x256x256) S1x256x256.size (cc1_transform_6 i) (hinb1_6 i)).WholeWords (EltTy.packing .f32)
  hrank2 : 0 < grid2.rank
  k2_mult1_dvd : ∀ i : grid2.Coords, 128 ∣ (k2_mult1 i).toNat
  k2_off1_inb : ∀ i : grid2.Coords, ∀ a, (k2_off1 i) a + S256x1024.size a ≤ S256x1024.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S16x1024x1024.size a
  hwx2_0 : ∀ i : grid2.Coords, EltTy.bits .f32 = 32 ∨ (Rect.block (s := S16x1024x1024) S1x1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S256x1024.size a
  hwx2_1 : ∀ i : grid2.Coords, EltTy.bits .bf16 = 32 ∨ (Rect.block (s := S256x1024) S256x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S1024x256.size a
  hwx2_2 : ∀ i : grid2.Coords, EltTy.bits .f32 = 32 ∨ (Rect.block (s := S1024x256) S1024x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S256x1.size a
  hwx2_3 : ∀ i : grid2.Coords, EltTy.bits .f32 = 32 ∨ (Rect.block (s := S256x1) S256x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x1.size a ≤ S256x1.size a
  hwx2_5 : ∀ i : grid2.Coords, EltTy.bits .f32 = 32 ∨ (Rect.block (s := S256x1) S256x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x256x256.size a ≤ S16x256x256.size a
  hwx2_6 : ∀ i : grid2.Coords, EltTy.bits .f32 = 32 ∨ (Rect.block (s := S16x256x256) S1x256x256.size (cc2_transform_6 i) (hinb2_6 i)).WholeWords (EltTy.packing .f32)

variable [Facts₀]

def dot_S256x8192_S256x8192_S256x256_1_1_0_0_n_n : DotDims S256x8192 S256x8192 S256x256 where
  lhsContracting := [1]
  rhsContracting := [1]
  lhsNonContracting := [0]
  rhsNonContracting := [0]
  lhsBatch := []
  rhsBatch := []
  wf := dot_S256x8192_S256x8192_S256x256_1_1_0_0_n_n_wf
def dot_S256x256_S256x256_S256x256_0_0_1_1_n_n : DotDims S256x256 S256x256 S256x256 where
  lhsContracting := [0]
  rhsContracting := [0]
  lhsNonContracting := [1]
  rhsNonContracting := [1]
  lhsBatch := []
  rhsBatch := []
  wf := dot_S256x256_S256x256_S256x256_0_0_1_1_n_n_wf
def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S512x256_S256x256_0_0_1_1_n_n : DotDims S512x256 S512x256 S256x256 where
  lhsContracting := [0]
  rhsContracting := [0]
  lhsNonContracting := [1]
  rhsNonContracting := [1]
  lhsBatch := []
  rhsBatch := []
  wf := dot_S512x256_S512x256_S256x256_0_0_1_1_n_n_wf
def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x256_S1024x256_S256x256_0_0_1_1_n_n : DotDims S1024x256 S1024x256 S256x256 where
  lhsContracting := [0]
  rhsContracting := [0]
  lhsNonContracting := [1]
  rhsNonContracting := [1]
  lhsBatch := []
  rhsBatch := []
  wf := dot_S1024x256_S1024x256_S256x256_0_0_1_1_n_n_wf

abbrev win0_0 : Pipeline.Window sig grid0 :=
  Pipeline.Window.ofSpec (Memref.whole main_v0) S1x256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v10) S1x512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S256x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S256x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1x256x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v20) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S256x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S1024x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S256x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S256x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S1x256x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S16x256x128x128 : Shape := ⟨4, ![16, 256, 128, 128]⟩
abbrev S16x512x64x64 : Shape := ⟨4, ![16, 512, 64, 64]⟩
abbrev S16x1024x32x32 : Shape := ⟨4, ![16, 1024, 32, 32]⟩
abbrev S256 : Shape := ⟨1, ![256]⟩
abbrev S256x256 : Shape := ⟨2, ![256, 256]⟩
abbrev S512x256 : Shape := ⟨2, ![512, 256]⟩
abbrev S1024x256 : Shape := ⟨2, ![1024, 256]⟩
abbrev S16x128x128x256 : Shape := ⟨4, ![16, 128, 128, 256]⟩
abbrev S16x16384x256 : Shape := ⟨3, ![16, 16384, 256]⟩
abbrev S_ : Shape := ⟨0, ![]⟩
abbrev S256x1 : Shape := ⟨2, ![256, 1]⟩
abbrev S16x256x256 : Shape := ⟨3, ![16, 256, 256]⟩
abbrev S4096x256 : Shape := ⟨2, ![4096, 256]⟩
abbrev S1x256 : Shape := ⟨2, ![1, 256]⟩
abbrev S4096 : Shape := ⟨1, ![4096]⟩
abbrev S4096x1 : Shape := ⟨2, ![4096, 1]⟩
abbrev S16x64x64x512 : Shape := ⟨4, ![16, 64, 64, 512]⟩
abbrev S16x4096x512 : Shape := ⟨3, ![16, 4096, 512]⟩
abbrev S16x256x512 : Shape := ⟨3, ![16, 256, 512]⟩
abbrev S4096x512 : Shape := ⟨2, ![4096, 512]⟩
abbrev S16x32x32x1024 : Shape := ⟨4, ![16, 32, 32, 1024]⟩
abbrev S16x1024x1024 : Shape := ⟨3, ![16, 1024, 1024]⟩
abbrev S16x256x1024 : Shape := ⟨3, ![16, 256, 1024]⟩
abbrev S4096x1024 : Shape := ⟨2, ![4096, 1024]⟩

abbrev nBuf : Space → Nat
  | .hbm => 117
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x512x64x64, .f32⟩
  | .hbm, ⟨2, _⟩ => ⟨S16x1024x32x32, .f32⟩
  | .hbm, ⟨3, _⟩ => ⟨S256, .i32⟩
  | .hbm, ⟨4, _⟩ => ⟨S256, .i32⟩
  | .hbm, ⟨5, _⟩ => ⟨S256, .i32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S512x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S1024x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S16x128x128x256, .f32⟩
  | .hbm, ⟨19, _⟩ => ⟨S16x16384x256, .f32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256x1, .i32⟩
  | .hbm, ⟨28, _⟩ => ⟨S16x256x256, .f32⟩
  | .hbm, ⟨29, _⟩ => ⟨S4096x256, .f32⟩
  | .hbm, ⟨30, _⟩ => ⟨S4096x256, .f32⟩
  | .hbm, ⟨31, _⟩ => ⟨S1x256, .f32⟩
  | .hbm, ⟨32, _⟩ => ⟨S4096x256, .f32⟩
  | .hbm, ⟨33, _⟩ => ⟨S4096x256, .f32⟩
  | .hbm, ⟨34, _⟩ => ⟨S_, .f32⟩
  | .hbm, ⟨35, _⟩ => ⟨S4096x256, .f32⟩
  | .hbm, ⟨36, _⟩ => ⟨S4096x256, .f32⟩
  | .hbm, ⟨37, _⟩ => ⟨S4096x256, .f32⟩
  | .hbm, ⟨38, _⟩ => ⟨S1x256, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x256, .f32⟩
  | .hbm, ⟨50, _⟩ => ⟨S4096x256, .f32⟩
  | .hbm, ⟨51, _⟩ => ⟨S16x64x64x512, .f32⟩
  | .hbm, ⟨52, _⟩ => ⟨S16x4096x512, .f32⟩
  | .hbm, ⟨53, _⟩ => ⟨S_, .i32⟩
  | .hbm, ⟨54, _⟩ => ⟨S256, .i32⟩
  | .hbm, ⟨55, _⟩ => ⟨S256, .i1⟩
  | .hbm, ⟨56, _⟩ => ⟨S_, .i32⟩
  | .hbm, ⟨57, _⟩ => ⟨S256, .i32⟩
  | .hbm, ⟨58, _⟩ => ⟨S256, .i32⟩
  | .hbm, ⟨59, _⟩ => ⟨S256, .i32⟩
  | .hbm, ⟨60, _⟩ => ⟨S256x1, .i32⟩
  | .hbm, ⟨61, _⟩ => ⟨S16x256x512, .f32⟩
  | .hbm, ⟨62, _⟩ => ⟨S4096x512, .f32⟩
  | .hbm, ⟨63, _⟩ => ⟨S4096x256, .f32⟩
  | .hbm, ⟨64, _⟩ => ⟨S1x256, .f32⟩
  | .hbm, ⟨65, _⟩ => ⟨S4096x256, .f32⟩
  | .hbm, ⟨66, _⟩ => ⟨S4096x256, .f32⟩
  | .hbm, ⟨67, _⟩ => ⟨S_, .f32⟩
  | .hbm, ⟨68, _⟩ => ⟨S4096x256, .f32⟩
  | .hbm, ⟨69, _⟩ => ⟨S4096x256, .f32⟩
  | .hbm, ⟨70, _⟩ => ⟨S4096x256, .f32⟩
  | .hbm, ⟨71, _⟩ => ⟨S1x256, .f32⟩
  | .hbm, ⟨72, _⟩ => ⟨S4096x256, .f32⟩
  | .hbm, ⟨73, _⟩ => ⟨S4096x256, .f32⟩
  | .hbm, ⟨74, _⟩ => ⟨S4096x256, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S4096x256, .f32⟩
  | .hbm, ⟨83, _⟩ => ⟨S4096x256, .f32⟩
  | .hbm, ⟨84, _⟩ => ⟨S16x32x32x1024, .f32⟩
  | .hbm, ⟨85, _⟩ => ⟨S16x1024x1024, .f32⟩
  | .hbm, ⟨86, _⟩ => ⟨S_, .i32⟩
  | .hbm, ⟨87, _⟩ => ⟨S256, .i32⟩
  | .hbm, ⟨88, _⟩ => ⟨S256, .i1⟩
  | .hbm, ⟨89, _⟩ => ⟨S_, .i32⟩
  | .hbm, ⟨90, _⟩ => ⟨S256, .i32⟩
  | .hbm, ⟨91, _⟩ => ⟨S256, .i32⟩
  | .hbm, ⟨92, _⟩ => ⟨S256, .i32⟩
  | .hbm, ⟨93, _⟩ => ⟨S256x1, .i32⟩
  | .hbm, ⟨94, _⟩ => ⟨S16x256x1024, .f32⟩
  | .hbm, ⟨95, _⟩ => ⟨S4096x1024, .f32⟩
  | .hbm, ⟨96, _⟩ => ⟨S4096x256, .f32⟩
  | .hbm, ⟨97, _⟩ => ⟨S1x256, .f32⟩
  | .hbm, ⟨98, _⟩ => ⟨S4096x256, .f32⟩
  | .hbm, ⟨99, _⟩ => ⟨S4096x256, .f32⟩
  | .hbm, ⟨100, _⟩ => ⟨S_, .f32⟩
  | .hbm, ⟨101, _⟩ => ⟨S4096x256, .f32⟩
  | .hbm, ⟨102, _⟩ => ⟨S4096x256, .f32⟩
  | .hbm, ⟨103, _⟩ => ⟨S4096x256, .f32⟩
  | .hbm, ⟨104, _⟩ => ⟨S1x256, .f32⟩
  | .hbm, ⟨105, _⟩ => ⟨S4096x256, .f32⟩
  | .hbm, ⟨106, _⟩ => ⟨S4096x256, .f32⟩
  | .hbm, ⟨107, _⟩ => ⟨S4096x256, .f32⟩
  | .hbm, ⟨108, _⟩ => ⟨S_, .f32⟩
  | .hbm, ⟨109, _⟩ => ⟨S4096, .f32⟩
  | .hbm, ⟨110, _⟩ => ⟨S4096x1, .f32⟩
  | .hbm, ⟨111, _⟩ => ⟨S4096x1, .f32⟩
  | .hbm, ⟨112, _⟩ => ⟨S_, .f32⟩
  | .hbm, ⟨113, _⟩ => ⟨S4096x1, .f32⟩
  | .hbm, ⟨114, _⟩ => ⟨S4096x1, .f32⟩
  | .hbm, ⟨115, _⟩ => ⟨S4096x256, .f32⟩
  | .hbm, ⟨116, _⟩ => ⟨S4096x256, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_3 : Ref sig .tc := ⟨.hbm, 53, rfl⟩
abbrev main_v30 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_8 : Ref sig .tc := ⟨.hbm, 86, rfl⟩
abbrev main_v58 : Ref sig .tc := ⟨.hbm, 87, rfl⟩
abbrev main_v59 : Ref sig .tc := ⟨.hbm, 88, rfl⟩
abbrev main_c_9 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_10 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_11 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_12 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩

abbrev nD : Nat := 1
abbrev τ : Topo := Topo.v7x

variable {F : FTy → Type} [FloatOps F]

class Facts₀ : Prop where
  transposes_S16x256x128x128_S16x128x128x256_0_2_3_1 : S16x256x128x128.Transposes [0, 2, 3, 1] S16x128x128x256
  shapeCasts_S16x128x128x256_S16x16384x256 : S16x128x128x256.ShapeCasts S16x16384x256
  bcast_S_S256 : S_.BroadcastsInDim S256 (![] : Fin 0 → Fin S256.rank)
  bcast_S256_S256x1_0 : S256.BroadcastsInDim S256x1 (![0] : Fin 1 → Fin S256x1.rank)
  shapeCasts_S16x256x256_S4096x256 : S16x256x256.ShapeCasts S4096x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  transposes_S16x512x64x64_S16x64x64x512_0_2_3_1 : S16x512x64x64.Transposes [0, 2, 3, 1] S16x64x64x512
  shapeCasts_S16x64x64x512_S16x4096x512 : S16x64x64x512.ShapeCasts S16x4096x512
  shapeCasts_S16x256x512_S4096x512 : S16x256x512.ShapeCasts S4096x512
  transposes_S16x1024x32x32_S16x32x32x1024_0_2_3_1 : S16x1024x32x32.Transposes [0, 2, 3, 1] S16x32x32x1024
  shapeCasts_S16x32x32x1024_S16x1024x1024 : S16x32x32x1024.ShapeCasts S16x1024x1024
  shapeCasts_S16x256x1024_S4096x1024 : S16x256x1024.ShapeCasts S4096x1024
  gather_S16x16384x256_S256x1_S16x256x256_02_1_n_n_1_1_161256_wf : GatherDims.WF S16x16384x256 S256x1 S16x256x256 [0, 2] [1] [] [1] [] 1 ![16, 1, 256]
  dot_S4096x256_S256x256_S4096x256_1_0_0_1_n_n_wf : DotDims.WF S4096x256 S256x256 S4096x256 [1] [0] [0] [1] [] []
  gather_S16x4096x512_S256x1_S16x256x512_02_1_n_n_1_1_161512_wf : GatherDims.WF S16x4096x512 S256x1 S16x256x512 [0, 2] [1] [] [1] [] 1 ![16, 1, 512]
  dot_S4096x512_S512x256_S4096x256_1_0_0_1_n_n_wf : DotDims.WF S4096x512 S512x256 S4096x256 [1] [0] [0] [1] [] []
  gather_S16x1024x1024_S256x1_S16x256x1024_02_1_n_n_1_1_1611024_wf : GatherDims.WF S16x1024x1024 S256x1 S16x256x1024 [0, 2] [1] [] [1] [] 1 ![16, 1, 1024]
  dot_S4096x1024_S1024x256_S4096x256_1_0_0_1_n_n_wf : DotDims.WF S4096x1024 S1024x256 S4096x256 [1] [0] [0] [1] [] []

variable [Facts₀]

def gather_S16x16384x256_S256x1_S16x256x256_02_1_n_n_1_1_161256 : GatherDims S16x16384x256 S256x1 S16x256x256 where
  offsetDims := [0, 2]
  collapsedSliceDims := [1]
  operandBatchingDims := []
  startIndicesBatchingDims := []
  startIndexMap := [1]
  indexVectorDim := 1
  sliceSizes := ![16, 1, 256]
  wf := gather_S16x16384x256_S256x1_S16x256x256_02_1_n_n_1_1_161256_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S16x4096x512_S256x1_S16x256x512_02_1_n_n_1_1_161512 : GatherDims S16x4096x512 S256x1 S16x256x512 where
  offsetDims := [0, 2]
  collapsedSliceDims := [1]
  operandBatchingDims := []
  startIndicesBatchingDims := []
  startIndexMap := [1]
  indexVectorDim := 1
  sliceSizes := ![16, 1, 512]
  wf := gather_S16x4096x512_S256x1_S16x256x512_02_1_n_n_1_1_161512_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def gather_S16x1024x1024_S256x1_S16x256x1024_02_1_n_n_1_1_1611024 : GatherDims S16x1024x1024 S256x1 S16x256x1024 where
  offsetDims := [0, 2]
  collapsedSliceDims := [1]
  operandBatchingDims := []
  startIndicesBatchingDims := []
  startIndexMap := [1]
  indexVectorDim := 1
  sliceSizes := ![16, 1, 1024]
  wf := gather_S16x1024x1024_S256x1_S16x256x1024_02_1_n_n_1_1_1611024_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf

class Facts : Prop extends Facts₀ where

variable [Facts]
-- ==== Proof.KB.R0.Runs.lean ====
import proofs.«419407_j15839839387757_3_alg».proof.Proof.Gen.Kernel.Launch
import proofs.«419407_j15839839387757_3_alg».proof.Proof.Gen.Kernel.Skeleton
import proofs.«419407_j15839839387757_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.R0

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1

-- Point `2 * b + k` is tile `k`: the first conditional (reset) is taken at tile 0, the second (layers and store) at tile 1.
theorem hcond0 : ∀ t : Fin cfg0.N, (cond0_0 (grid0.coords t) ↔ t.val % 2 = 0) ∧ (cond0_1 (grid0.coords t) ↔ ¬t.val % 2 = 0) :=
  (by decide +kernel : ∀ t : Fin grid0.N, (cond0_0 (grid0.coords t) ↔ t.val % 2 = 0) ∧ (cond0_1 (grid0.coords t) ↔ ¬t.val % 2 = 0))

theorem idle0 : ∀ t : Fin cfg0.N, (∀ w : Fin cfg0.W, w.val < 6 → cfg0.idle w (grid0.coords t) = false)
    ∧ (t.val % 2 = 0 → cfg0.idle 6 (grid0.coords t) = true ∧ (cfg0.win 6).flush t = false)
    ∧ (¬t.val % 2 = 0 → cfg0.idle 6 (grid0.coords t) = false) := by decide +kernel

abbrev ms0_0 (t : Fin cfg0.N) : Memref sig .tc .vmem S1x256x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x16384 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x256 .f32 := win0_6.stage (cfg0.slots t 6)
abbrev hs0_6 (t : Fin cfg0.N) : (ms0_6 t).IsWhole := hstage0_6 ((cfg0.slots t 6).cast nbuf0_6)
abbrev scM0_0 : Memref sig .tc .vmem S256x256 .f32 := Memref.whole cc0_scratch0

-- Pieces read back over arbitrary contents: what a buffer they tile holds, whatever it held before.
abbrev rb {sh : Shape} {e : EltTy} (m : Memref sig .tc .vmem sh e) (L : List (View.Piece (Elt F) sh e)) : Vec F sh e :=
  m.view.read (Elt F) (m.view.writes (Elt F) m.view.junk L)

theorem owns_unread {sp : Space} {sh : Shape} {e : EltTy} {m : Memref sig .tc sp sh e} (h : m.IsWhole) (c : Dev nD) (q : PosShare TreeShare)
    (X : sh.Idx → Elt F e) : (owns (c : Thread nD τ) m q X : sProp 𝕄) = (m.view.loc (c : Thread nD τ) ↦[m.view.set]{q} h.unread X) := by
  have h₁ : (owns (c : Thread nD τ) m q X : sProp 𝕄) ⊢ (m.view.loc (c : Thread nD τ) ↦[m.view.set]{q} h.unread X) := by
    unfold owns; iintro ⟨%f, %hf, H⟩; obtain rfl := h.eq_unread hf; iexact H
  have h₂ : (m.view.loc (c : Thread nD τ) ↦[m.view.set]{q} h.unread X : sProp 𝕄) ⊢ owns (c : Thread nD τ) m q X := by
    unfold owns; iintro H; iexists _; isplitr; · ipureintro; exact h.read_unread X
    iexact H
  exact BI.equiv_iff.mp ⟨h₁, h₂⟩

-- The resting invariant is the accumulator at some contents, beside a remainder this region never touches and the generator register.
theorem PhiA0_split (c : Dev nD) : ∃ R : sProp 𝕄,
    (Pipeline.ΦA spec0 c : sProp 𝕄) = iprop(iprop((∃ d, owns (c : Thread nD τ) scM0_0 fullShare d) ∗ R) ∗ (∃ r, prngReg c r)) := by
  unfold Pipeline.ΦA; rw [scopedRest0_eq]; simp only [scM0_0, owns_whole]; exact ⟨_, rfl⟩

def restS (c : Dev nD) : sProp 𝕄 := (PhiA0_split (F := F) c).choose

theorem PhiA0_eq (c : Dev nD) :
    (Pipeline.ΦA spec0 c : sProp 𝕄) = iprop(iprop((∃ d, owns (c : Thread nD τ) scM0_0 fullShare d) ∗ restS (F := F) c) ∗ (∃ r, prngReg c r)) :=
  (PhiA0_split c).choose_spec

end Cert.Kernel.R0

end
-- ==== Proof.KB.R0.RunA.lean ====
import proofs.«419407_j15839839387757_3_alg».proof.Proof.KB.R0.Runs

noncomputable section

namespace Cert.Kernel.R0

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

-- The six inputs' memrefs at their contents, beside `R`.
def inputs (c : Dev nD) (arg2 : Memref sig .tc .vmem S1x256x8192 .f32) (arg3 : Memref sig .tc .vmem S256x16384 .bf16) (arg4 : Memref sig .tc .vmem S256x256 .f32) (arg5 : Memref sig .tc .vmem S256x1 .f32) (arg6 : Memref sig .tc .vmem S256x256 .f32) (arg7 : Memref sig .tc .vmem S256x1 .f32)
    (x0 : Vec F S1x256x8192 .f32) (x1 : Vec F S256x16384 .bf16) (x2 : Vec F S256x256 .f32) (x3 : Vec F S256x1 .f32) (x4 : Vec F S256x256 .f32) (x5 : Vec F S256x1 .f32) (R : sProp 𝕄) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ R)

-- The accumulator's pieces at an even point (the reset, then the first tile's update), with the run: the inputs are handed back as found, the accumulator holds its pieces read back.
noncomputable def kernelRun0_A (c : Dev nD) (i : grid0.Coords) {arg2 : Memref sig .tc .vmem S1x256x8192 .f32} (harg2 : arg2.IsWhole) {arg3 : Memref sig .tc .vmem S256x16384 .bf16} (harg3 : arg3.IsWhole) {arg4 : Memref sig .tc .vmem S256x256 .f32} (harg4 : arg4.IsWhole) {arg5 : Memref sig .tc .vmem S256x1 .f32} (harg5 : arg5.IsWhole) {arg6 : Memref sig .tc .vmem S256x256 .f32} (harg6 : arg6.IsWhole) {arg7 : Memref sig .tc .vmem S256x1 .f32} (harg7 : arg7.IsWhole) {arg8 : Memref sig .tc .vmem S1x256x256 .f32} (harg8 : arg8.IsWhole) {arg9 : Memref sig .tc .vmem S256x256 .f32} (harg9 : arg9.IsWhole) (hc0 : cond0_0 i) (hc1 : ¬cond0_1 i)
    (x0 : Vec F S1x256x8192 .f32) (x1 : Vec F S256x16384 .bf16) (x2 : Vec F S256x256 .f32) (x3 : Vec F S256x1 .f32) (x4 : Vec F S256x256 .f32) (x5 : Vec F S256x1 .f32) :
    { LS0 : List (View.Piece (Elt F) S256x256 .f32) // ∀ (d : Vec F S256x256 .f32) (E : Set ℕ) (K : PUnit → sProp 𝕄),
        inputs c arg2 arg3 arg4 arg5 arg6 arg7 x0 x1 x2 x3 x4 x5 iprop(owns (c : Thread nD τ) arg9 fullShare d
            ∗ (inputs c arg2 arg3 arg4 arg5 arg6 arg7 x0 x1 x2 x3 x4 x5 (owns (c : Thread nD τ) arg9 fullShare (rb arg9 LS0)) -∗ K ⟨⟩))
          ⊢ wp frame (wpE (defs₀ (F := F)) Variants.none c none) E
              (cc0__gather_mlp_kernel i arg2 harg2 arg3 harg3 arg4 harg4 arg5 harg5 arg6 harg6 arg7 harg7 arg8 harg8 arg9 harg9) K } := by
  refine ⟨?_, fun d E K => ?run⟩
  case run =>
    unfold inputs
    rw [owns_unread harg2, owns_unread harg3, owns_unread harg4, owns_unread harg5, owns_unread harg6, owns_unread harg7, owns_unread harg9 c fullShare d]
    simp only [cc0__gather_mlp_kernel_eq_skeleton]; unfold cc0__gather_mlp_kernel_skel
    iintro ⟨H0, H1, H2, H3, H4, H5, HS0, Hk⟩
    sl_exec (disch := first | exact hc0 | exact hc1)
    sl_step
    iapply Hk
    iframe H0 H1 H2 H3 H4 H5
    ihave H' := (Ring.owns_of_writes_tiledL arg9.view S256x256.size) $$ HS0
    iapply H'; ipureintro; sl_kernel_rfl

end Cert.Kernel.R0

end
-- ==== Proof.KB.R0.RunB.lean ====
import proofs.«419407_j15839839387757_3_alg».proof.Proof.KB.R0.RunA

noncomputable section

namespace Cert.Kernel.R0

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

-- The output's and the accumulator's pieces at an odd point (the second tile's update over `xs0`; the two layers and the normalisation of it, stored whole), with the run.
noncomputable def kernelRun0_B (c : Dev nD) (i : grid0.Coords) {arg2 : Memref sig .tc .vmem S1x256x8192 .f32} (harg2 : arg2.IsWhole) {arg3 : Memref sig .tc .vmem S256x16384 .bf16} (harg3 : arg3.IsWhole) {arg4 : Memref sig .tc .vmem S256x256 .f32} (harg4 : arg4.IsWhole) {arg5 : Memref sig .tc .vmem S256x1 .f32} (harg5 : arg5.IsWhole) {arg6 : Memref sig .tc .vmem S256x256 .f32} (harg6 : arg6.IsWhole) {arg7 : Memref sig .tc .vmem S256x1 .f32} (harg7 : arg7.IsWhole) {arg8 : Memref sig .tc .vmem S1x256x256 .f32} (harg8 : arg8.IsWhole) {arg9 : Memref sig .tc .vmem S256x256 .f32} (harg9 : arg9.IsWhole) (hc0 : ¬cond0_0 i) (hc1 : cond0_1 i)
    (x0 : Vec F S1x256x8192 .f32) (x1 : Vec F S256x16384 .bf16) (x2 : Vec F S256x256 .f32) (x3 : Vec F S256x1 .f32) (x4 : Vec F S256x256 .f32) (x5 : Vec F S256x1 .f32) (xs0 : Vec F S256x256 .f32) :
    Σ' (L6 : List (View.Piece (Elt F) S1x256x256 .f32)), { LS0 : List (View.Piece (Elt F) S256x256 .f32) //
      ∀ (d6 : Vec F S1x256x256 .f32) (E : Set ℕ) (K : PUnit → sProp 𝕄),
        inputs c arg2 arg3 arg4 arg5 arg6 arg7 x0 x1 x2 x3 x4 x5 iprop(owns (c : Thread nD τ) arg8 fullShare d6 ∗ owns (c : Thread nD τ) arg9 fullShare xs0
            ∗ (inputs c arg2 arg3 arg4 arg5 arg6 arg7 x0 x1 x2 x3 x4 x5 iprop(owns (c : Thread nD τ) arg8 fullShare (rb arg8 L6) ∗ owns (c : Thread nD τ) arg9 fullShare (rb arg9 LS0)) -∗ K ⟨⟩))
          ⊢ wp frame (wpE (defs₀ (F := F)) Variants.none c none) E
              (cc0__gather_mlp_kernel i arg2 harg2 arg3 harg3 arg4 harg4 arg5 harg5 arg6 harg6 arg7 harg7 arg8 harg8 arg9 harg9) K } := by
  refine ⟨?_, ?_, fun d6 E K => ?run⟩
  case run =>
    unfold inputs
    rw [owns_unread harg2, owns_unread harg3, owns_unread harg4, owns_unread harg5, owns_unread harg6, owns_unread harg7,
      owns_unread harg8 c fullShare d6, owns_unread harg9 c fullShare xs0]
    simp only [cc0__gather_mlp_kernel_eq_skeleton]; unfold cc0__gather_mlp_kernel_skel
    iintro ⟨H0, H1, H2, H3, H4, H5, H6, HS0, Hk⟩
    sl_exec (disch := first | exact hc0 | exact hc1)
    sl_step
    iapply Hk
    iframe H0 H1 H2 H3 H4 H5
    isplitl [H6]
    · ihave H' := (Ring.owns_of_writes_tiledL arg8.view S1x256x256.size) $$ H6
      iapply H'; ipureintro; sl_kernel_rfl
    ihave H' := (Ring.owns_of_writes_tiledL arg9.view S256x256.size) $$ HS0
    iapply H'; ipureintro; sl_kernel_rfl

end Cert.Kernel.R0

end
-- ==== Proof.KB.R0.Body.lean ====
import proofs.«419407_j15839839387757_3_alg».proof.Proof.KB.R0.RunB

noncomputable section

namespace Cert.Kernel.R0

open Cert.Kernel Cert.Kernel.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The even point's run on point `t`'s own memrefs and blocks.
def runA (c : Dev nD) (t : Fin cfg0.N) (h : t.val % 2 = 0) :=
  kernelRun0_A c (grid0.coords t) (hs0_0 t) (hs0_1 t) (hs0_2 t) (hs0_3 t) (hs0_4 t) (hs0_5 t) (hs0_6 t) (Memref.isWhole_whole cc0_scratch0) ((hcond0 t).1.mpr h) (fun h' => (hcond0 t).2.mp h' h) (iblk V c 0 t) (iblk V c 1 t) (iblk V c 2 t) (iblk V c 3 t) (iblk V c 4 t) (iblk V c 5 t)

-- What the even point before an odd point left in the accumulator.
def prevAcc (c : Dev nD) (t : Fin cfg0.N) (h : ¬t.val % 2 = 0) : Vec F S256x256 .f32 :=
  rb scM0_0 (runA V c ⟨t.val - 1, lt_of_le_of_lt (Nat.sub_le _ _) t.isLt⟩ (by show (t.val - 1) % 2 = 0; omega)).1

-- The odd point's run, over what the even point before it left in the accumulator.
def runB (c : Dev nD) (t : Fin cfg0.N) (h : ¬t.val % 2 = 0) :=
  kernelRun0_B c (grid0.coords t) (hs0_0 t) (hs0_1 t) (hs0_2 t) (hs0_3 t) (hs0_4 t) (hs0_5 t) (hs0_6 t) (Memref.isWhole_whole cc0_scratch0) (fun h' => h ((hcond0 t).1.mp h')) ((hcond0 t).2.mpr h) (iblk V c 0 t) (iblk V c 1 t) (iblk V c 2 t) (iblk V c 3 t) (iblk V c 4 t) (iblk V c 5 t) (prevAcc V c t h)

-- What the output's buffer and the accumulator hold after point `t`; an even point stores nothing into the output, so its first component is never read.
def outsAt (c : Dev nD) (t : Fin cfg0.N) : Vec F S1x256x256 .f32 × Vec F S256x256 .f32 :=
  if h : t.val % 2 = 0 then (rb (ms0_6 t) [], rb scM0_0 (runA V c t h).1)
  else (rb (ms0_6 t) (runB V c t h).1, rb scM0_0 (runB V c t h).2.1)

-- The invariant between points: the accumulator at `x`, beside that remainder and the generator register.
def accInv (c : Dev nD) (x : Vec F S256x256 .f32) : sProp 𝕄 :=
  iprop(iprop(owns (c : Thread nD τ) scM0_0 fullShare x ∗ restS (F := F) c) ∗ (∃ r, prngReg c r))

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t).1
  Φ
    | ⟨0, _⟩ => Pipeline.ΦA spec0 c
    | ⟨n + 1, h⟩ => accInv c (outsAt V c ⟨n, Nat.lt_of_succ_lt_succ h⟩).2
  q _ := fullShare
  owed _ := 0

theorem A_eq (c : Dev nD) (w : Fin cfg0.W) : (dat V c).A w = V c (Pipeline.arrRef spec0 w) := rfl

theorem Phi_succ (c : Dev nD) (t : Fin cfg0.N) : (dat V c).Φ t.succ = accInv c (outsAt V c t).2 := rfl

theorem outsAt_even (c : Dev nD) (t : Fin cfg0.N) (h : t.val % 2 = 0) : (outsAt V c t).2 = rb scM0_0 (runA V c t h).1 := by
  rw [outsAt, dif_pos h]

-- Before an odd point the accumulator is at what the even point before it left.
theorem Phi_odd (c : Dev nD) (t : Fin cfg0.N) (h : ¬t.val % 2 = 0) :
    (dat V c).Φ t.castSucc = accInv c (prevAcc V c t h) := by
  obtain ⟨_ | n, hn⟩ := t
  · exact absurd rfl h
  · exact congrArg (accInv c) (outsAt_even V c _ _)

-- The invariant at any point gives the resting one: the accumulator's named contents are forgotten.
theorem Phi_rest (c : Dev nD) (s : Fin (cfg0.N + 1)) :
    (dat V c).Φ s ⊢ iprop(iprop((∃ d, owns (c : Thread nD τ) scM0_0 fullShare d) ∗ restS (F := F) c) ∗ (∃ r, prngReg c r)) := by
  obtain ⟨_ | n, hn⟩ := s
  · show Pipeline.ΦA spec0 c ⊢ _; rw [PhiA0_eq]
  · show accInv c _ ⊢ _; unfold accInv
    iintro ⟨⟨HS, HR⟩, Hg⟩; iframe HR Hg; iexists _; iexact HS

theorem before_in (c : Dev nD) (w : Fin cfg0.W) (hw : w.val < 6) (t : Fin cfg0.N) (d) : (dat V c).before w t d = (dat V c).fetched w t d := by
  rcases w with ⟨_|_|_|_|_|_|n, hn⟩
  iterate 6 exact (dat V c).before_in_eq_fetched _ rfl (fun _ => rfl) (fun _ _ _ => rfl) (fun _ => rfl) t d
  exact absurd hw (by dsimp only; omega)

def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d)))

def bodyPost (c : Dev nD) (t : Fin cfg0.N) : sProp 𝕄 :=
  iprop((dat V c).Φ t.succ ∗ (dat V c).owesAt () t.castSucc ∗ inputs c (ms0_0 t) (ms0_1 t) (ms0_2 t) (ms0_3 t) (ms0_4 t) (ms0_5 t) (iblk V c 0 t) (iblk V c 1 t) (iblk V c 2 t) (iblk V c 3 t) (iblk V c 4 t) (iblk V c 5 t) ((dat V c).leavesExact 6 t))

-- The body at any point: the parity of the point decides the two conditionals; the invariant lends the accumulator and takes it back at the point's contents.
theorem sound_body (c : Dev nD) (t : Fin cfg0.N) :
    bodyPre V c t ⊢ wp frame (wpE (defs₀ (F := F)) Variants.none c none) Set.univ (bodyAt0 t) (fun _ => bodyPost V c t) := by
  unfold bodyPre bodyPost
  have hb := fun w hw => before_in V c w hw t
  simp only [show ∀ d, _ = iblk V c 0 t from hb 0 (by decide), show ∀ d, _ = iblk V c 1 t from hb 1 (by decide), show ∀ d, _ = iblk V c 2 t from hb 2 (by decide),
    show ∀ d, _ = iblk V c 3 t from hb 3 (by decide), show ∀ d, _ = iblk V c 4 t from hb 4 (by decide), show ∀ d, _ = iblk V c 5 t from hb 5 (by decide)]
  rw [Phi_succ]
  obtain ⟨-, hA, hB⟩ := idle0 t
  by_cases h : t.val % 2 = 0
  · rw [Dat.leavesExact_idle _ 6 t (hA h).1 (hA h).2, outsAt, dif_pos h]
    refine (sep_mono_left (Phi_rest V c _)).trans ?_
    iintro ⟨⟨⟨⟨%d, HS⟩, HR⟩, Hg⟩, Ho, ⟨%d0, H0⟩, ⟨%d1, H1⟩, ⟨%d2, H2⟩, ⟨%d3, H3⟩, ⟨%d4, H4⟩, ⟨%d5, H5⟩, H6⟩
    iapply (runA V c t h).2 d Set.univ
    unfold inputs accInv
    iframe H0 H1 H2 H3 H4 H5 HS
    iintro ⟨H0, H1, H2, H3, H4, H5, HS⟩
    iframe HS HR Hg Ho H0 H1 H2 H3 H4 H5
    iexact H6
  · rw [show (dat V c).leavesExact 6 t = owns (c : Thread nD τ) (ms0_6 t) fullShare (outsAt V c t).1 from by
      unfold Dat.leavesExact; rw [hB h]; rfl, outsAt, dif_neg h, Phi_odd V c t h]
    unfold accInv
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (runB V c t h).2.2 _ Set.univ
    unfold inputs
    iframe H0 H1 H2 H3 H4 H5 H6 HS
    iintro ⟨H0, H1, H2, H3, H4, H5, H6, HS⟩
    iframe

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := Entails.refl _

theorem hout (c : Dev nD) : (dat V c).Φ (Fin.last cfg0.N) ⊢ Pipeline.ΦA spec0 c := by
  rw [PhiA0_eq]; exact Phi_rest V c _

end Cert.Kernel.R0

end
-- ==== Proof.KB.R1.Runs.lean ====
import proofs.«419407_j15839839387757_3_alg».proof.Proof.Gen.Kernel.Launch
import proofs.«419407_j15839839387757_3_alg».proof.Proof.Gen.Kernel.Skeleton
import proofs.«419407_j15839839387757_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1
-- One tile per batch row: every tile is both the first and the last of its row.
theorem hcond1 : ∀ t : Fin cfg1.N, cond1_0 (grid1.coords t) ∧ cond1_1 (grid1.coords t) :=
  (by decide +kernel : ∀ t : Fin grid1.N, cond1_0 (grid1.coords t) ∧ cond1_1 (grid1.coords t))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1_0 : Memref sig .tc .vmem S512x256 .f32 := Memref.whole cc1_scratch0

end Cert.Kernel.R1

end
-- ==== Proof.KB.R1.RunA.lean ====
import proofs.«419407_j15839839387757_3_alg».proof.Proof.KB.R1.Runs

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body on whole memrefs with both branches taken: inputs come back as found; the output buffer and the accumulator come back overwritten by the pieces the stores wrote.
noncomputable def kernelRun1_A (c : Dev nD) (i : grid1.Coords)
    (arg2 : Memref sig .tc .vmem S1x512x4096 .f32) (harg2 : arg2.IsWhole) (arg3 : Memref sig .tc .vmem S256x4096 .bf16) (harg3 : arg3.IsWhole)
    (arg4 : Memref sig .tc .vmem S512x256 .f32) (harg4 : arg4.IsWhole) (arg5 : Memref sig .tc .vmem S256x1 .f32) (harg5 : arg5.IsWhole)
    (arg6 : Memref sig .tc .vmem S256x256 .f32) (harg6 : arg6.IsWhole) (arg7 : Memref sig .tc .vmem S256x1 .f32) (harg7 : arg7.IsWhole)
    (arg8 : Memref sig .tc .vmem S1x256x256 .f32) (harg8 : arg8.IsWhole) (arg9 : Memref sig .tc .vmem S512x256 .f32) (harg9 : arg9.IsWhole)
    (hc0 : cond1_0 i) (hc1 : cond1_1 i)
    (x0 : Vec F S1x512x4096 .f32) (x1 : Vec F S256x4096 .bf16) (x2 : Vec F S512x256 .f32) (x3 : Vec F S256x1 .f32) (x4 : Vec F S256x256 .f32) (x5 : Vec F S256x1 .f32) :
    Σ' (L6 : List (View.Piece (Elt F) S1x256x256 .f32)), { LS0 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)) -∗ K ⟨⟩))
          ⊢ wp frame (wpE (defs₀ (F := F)) Variants.none c none) E
              (cc1__gather_mlp_kernel i arg2 harg2 arg3 harg3 arg4 harg4 arg5 harg5 arg6 harg6 arg7 harg7 arg8 harg8 arg9 harg9) K } := by
  refine ⟨?_, ?_, fun E K => ?run⟩
  case run =>
    simp only [cc1__gather_mlp_kernel_eq_skeleton]; unfold cc1__gather_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.R1

end
-- ==== Proof.KB.R1.Body.lean ====
import proofs.«419407_j15839839387757_3_alg».proof.Proof.KB.R1.RunA

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev VO1_6 : View sig .tc .vmem S1x256x256 .f32 := (Memref.whole cc1_stg6_0 : Memref sig .tc .vmem S1x256x256 .f32).view

-- The run at point `t`, fed the six input blocks there.
def runAt (c : Dev nD) (t : Fin cfg1.N) :=
  kernelRun1_A c (grid1.coords t) (st1_0 t) (stage_whole1 0 _) (st1_1 t) (stage_whole1 1 _) (st1_2 t) (stage_whole1 2 _) (st1_3 t) (stage_whole1 3 _) (st1_4 t) (stage_whole1 4 _) (st1_5 t) (stage_whole1 5 _) (st1_6 t) (stage_whole1 6 _) scM1_0 (Memref.isWhole_whole _) (hcond1 t).1 (hcond1 t).2
    (iblk V c 0 t) (iblk V c 1 t) (iblk V c 2 t) (iblk V c 3 t) (iblk V c 4 t) (iblk V c 5 t)

-- The output's pieces are one store of its whole block.
theorem cover (c : Dev nD) (t : Fin cfg1.N) (y : S1x256x256.Idx) : ∃ pc ∈ (runAt V c t).1, y ∈ pc.1.set :=
  View.cover_of_tiledL _ S1x256x256.size (by sl_kernel_rfl) y

def out (c : Dev nD) (t : Fin cfg1.N) : Vec F S1x256x256 .f32 :=
  VO1_6.read (Elt F) (VO1_6.writes (Elt F) VO1_6.junk (runAt V c t).1)

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out V c t
  Φ _ := Pipeline.ΦA spec1 c
  q _ := fullShare
  owed _ := 0

theorem A_eq (c : Dev nD) (w : Fin cfg1.W) : (dat V c).A w = V c (Pipeline.arrRef spec1 w) := rfl

theorem after_eq (c : Dev nD) (t : Fin cfg1.N) :
    (dat V c).after 0 t = iblk V c 0 t ∧ (dat V c).after 1 t = iblk V c 1 t ∧ (dat V c).after 2 t = iblk V c 2 t ∧ (dat V c).after 3 t = iblk V c 3 t
    ∧ (dat V c).after 4 t = iblk V c 4 t ∧ (dat V c).after 5 t = iblk V c 5 t ∧ (dat V c).after 6 t = out V c t := by
  dsimp only [dat]; exact ⟨rfl, rfl, rfl, rfl, rfl, rfl, rfl⟩

theorem before_in (c : Dev nD) (t : Fin cfg1.N) :
    (∀ d, (dat V c).before 0 t d = iblk V c 0 t) ∧ (∀ d, (dat V c).before 1 t d = iblk V c 1 t) ∧ (∀ d, (dat V c).before 2 t d = iblk V c 2 t)
    ∧ (∀ d, (dat V c).before 3 t d = iblk V c 3 t) ∧ (∀ d, (dat V c).before 4 t d = iblk V c 4 t) ∧ (∀ d, (dat V c).before 5 t d = iblk V c 5 t) := by
  refine ⟨?_, ?_, ?_, ?_, ?_, ?_⟩ <;> exact fun d => (dat V c).before_in_eq_fetched _ rfl (fun _ => rfl) (fun _ _ _ => rfl) (fun _ => rfl) t d

-- Every tile is its row's last, so the output is stored at every point.
theorem live : ∀ t : Fin cfg1.N, idle1 6 (grid1.coords t) = false := (by decide +kernel : ∀ t : Fin grid1.N, _)

-- Of the invariant the body uses the accumulator alone; the other scoped buffers are carried unopened.
theorem Phi_eq (c : Dev nD) (p : Fin (cfg1.N + 1)) : (dat V c).Φ p
    = iprop(((∃ d, owns (c : Thread nD τ) scM1_0 fullShare d) ∗ Pipeline.scopedRestBut spec1 c [cc1_scratch0]) ∗ ∃ r, prngReg c r) := by
  show Pipeline.ΦA spec1 c = _
  unfold Pipeline.ΦA; rw [Pipeline.scopedRest_split_of_list spec1 c [cc1_scratch0] (by decide) (by decide)]
  simp only [scM1_0, owns_whole]; rfl

-- Both branches are taken at every point, so the run applies; its output pieces cover the block, so the buffer holds them read back.
theorem body_obligation (c : Dev nD) : BodyObligation (dat (F := F) V c) (defs₀ (F := F)) Variants.none () Set.univ := fun t => by
  rw [bigSep_W1, bigSep_W1]
  show _ ⊢ wp _ _ _ (bodyAt1 t) _
  obtain ⟨b0, b1, b2, b3, b4, b5⟩ := before_in V c t
  obtain ⟨a0, a1, a2, a3, a4, a5, a6⟩ := after_eq V c t
  simp only [b0, b1, b2, b3, b4, b5, a0, a1, a2, a3, a4, a5, a6, Phi_eq]
  rw [live t, show (dat V c).owesAt () t.succ = (dat V c).owesAt () t.castSucc from rfl]; dsimp only
  iintro ⟨⟨⟨⟨%s, HS⟩, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((runAt V c t).2.2 Set.univ _)
  iframe H0 H1 H2 H3 H4 H5
  isplitl [H6]; · iexists _; iexact H6
  isplitl [HS]; · iexists _; iexact HS
  iintro ⟨H0, H1, H2, H3, H4, H5, ⟨%e6, H6⟩, ⟨%es, HS⟩⟩
  iframe HR Hg Ho H0 H1 H2 H3 H4 H5
  isplitl [HS]
  · iexists _; unfold owns; iexists _; isplitr; swap; · iexact HS
    ipureintro; rfl
  unfold owns; iexists _; isplitr; swap; · iexact H6
  ipureintro; exact View.read_writes_of_cover _ _ _ _ _ (cover V c t)

theorem hin (c : Dev nD) : Pipeline.ΦA spec1 c ⊢ (dat V c).Φ 0 := Idealize.SL.BI.Entails.refl _

theorem hout (c : Dev nD) : (dat V c).Φ (Fin.last cfg1.N) ⊢ Pipeline.ΦA spec1 c := Idealize.SL.BI.Entails.refl _

end Cert.Kernel.R1

end
-- ==== Proof.KB.R2.Runs.lean ====
import proofs.«419407_j15839839387757_3_alg».proof.Proof.Gen.Kernel.Launch
import proofs.«419407_j15839839387757_3_alg».proof.Proof.Gen.Kernel.Skeleton
import proofs.«419407_j15839839387757_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 1).val) 0#32)) 0#32) = 1#1
abbrev cond2_1 (i : grid2.Coords) : Prop := k2_cond2 i = 1#1
-- One tile per batch row: every tile is both the first and the last of its row.
theorem hcond2 : ∀ t : Fin cfg2.N, cond2_0 (grid2.coords t) ∧ cond2_1 (grid2.coords t) :=
  (by decide +kernel : ∀ t : Fin grid2.N, cond2_0 (grid2.coords t) ∧ cond2_1 (grid2.coords t))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2_0 : Memref sig .tc .vmem S1024x256 .f32 := Memref.whole cc2_scratch0

end Cert.Kernel.R2

end
-- ==== Proof.KB.R2.RunA.lean ====
import proofs.«419407_j15839839387757_3_alg».proof.Proof.KB.R2.Runs

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body on whole memrefs with both branches taken: inputs come back as found; the output buffer and the accumulator come back overwritten by the pieces the stores wrote.
noncomputable def kernelRun2_A (c : Dev nD) (i : grid2.Coords)
    (arg2 : Memref sig .tc .vmem S1x1024x1024 .f32) (harg2 : arg2.IsWhole) (arg3 : Memref sig .tc .vmem S256x1024 .bf16) (harg3 : arg3.IsWhole)
    (arg4 : Memref sig .tc .vmem S1024x256 .f32) (harg4 : arg4.IsWhole) (arg5 : Memref sig .tc .vmem S256x1 .f32) (harg5 : arg5.IsWhole)
    (arg6 : Memref sig .tc .vmem S256x256 .f32) (harg6 : arg6.IsWhole) (arg7 : Memref sig .tc .vmem S256x1 .f32) (harg7 : arg7.IsWhole)
    (arg8 : Memref sig .tc .vmem S1x256x256 .f32) (harg8 : arg8.IsWhole) (arg9 : Memref sig .tc .vmem S1024x256 .f32) (harg9 : arg9.IsWhole)
    (hc0 : cond2_0 i) (hc1 : cond2_1 i)
    (x0 : Vec F S1x1024x1024 .f32) (x1 : Vec F S256x1024 .bf16) (x2 : Vec F S1024x256 .f32) (x3 : Vec F S256x1 .f32) (x4 : Vec F S256x256 .f32) (x5 : Vec F S256x1 .f32) :
    Σ' (L6 : List (View.Piece (Elt F) S1x256x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)) -∗ K ⟨⟩))
          ⊢ wp frame (wpE (defs₀ (F := F)) Variants.none c none) E
              (cc2__gather_mlp_kernel i arg2 harg2 arg3 harg3 arg4 harg4 arg5 harg5 arg6 harg6 arg7 harg7 arg8 harg8 arg9 harg9) K } := by
  refine ⟨?_, ?_, fun E K => ?run⟩
  case run =>
    simp only [cc2__gather_mlp_kernel_eq_skeleton]; unfold cc2__gather_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.R2

end
-- ==== Proof.KB.R2.Body.lean ====
import proofs.«419407_j15839839387757_3_alg».proof.Proof.KB.R2.RunA

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev VO2_6 : View sig .tc .vmem S1x256x256 .f32 := (Memref.whole cc2_stg6_0 : Memref sig .tc .vmem S1x256x256 .f32).view

-- The run at point `t`, fed the six input blocks there.
def runAt (c : Dev nD) (t : Fin cfg2.N) :=
  kernelRun2_A c (grid2.coords t) (st2_0 t) (stage_whole2 0 _) (st2_1 t) (stage_whole2 1 _) (st2_2 t) (stage_whole2 2 _) (st2_3 t) (stage_whole2 3 _) (st2_4 t) (stage_whole2 4 _) (st2_5 t) (stage_whole2 5 _) (st2_6 t) (stage_whole2 6 _) scM2_0 (Memref.isWhole_whole _) (hcond2 t).1 (hcond2 t).2
    (iblk V c 0 t) (iblk V c 1 t) (iblk V c 2 t) (iblk V c 3 t) (iblk V c 4 t) (iblk V c 5 t)

-- The output's pieces are one store of its whole block.
theorem cover (c : Dev nD) (t : Fin cfg2.N) (y : S1x256x256.Idx) : ∃ pc ∈ (runAt V c t).1, y ∈ pc.1.set :=
  View.cover_of_tiledL _ S1x256x256.size (by sl_kernel_rfl) y

def out (c : Dev nD) (t : Fin cfg2.N) : Vec F S1x256x256 .f32 :=
  VO2_6.read (Elt F) (VO2_6.writes (Elt F) VO2_6.junk (runAt V c t).1)

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out V c t
  Φ _ := Pipeline.ΦA spec2 c
  q _ := fullShare
  owed _ := 0

theorem A_eq (c : Dev nD) (w : Fin cfg2.W) : (dat V c).A w = V c (Pipeline.arrRef spec2 w) := rfl

theorem after_eq (c : Dev nD) (t : Fin cfg2.N) :
    (dat V c).after 0 t = iblk V c 0 t ∧ (dat V c).after 1 t = iblk V c 1 t ∧ (dat V c).after 2 t = iblk V c 2 t ∧ (dat V c).after 3 t = iblk V c 3 t
    ∧ (dat V c).after 4 t = iblk V c 4 t ∧ (dat V c).after 5 t = iblk V c 5 t ∧ (dat V c).after 6 t = out V c t := by
  dsimp only [dat]; exact ⟨rfl, rfl, rfl, rfl, rfl, rfl, rfl⟩

theorem before_in (c : Dev nD) (t : Fin cfg2.N) :
    (∀ d, (dat V c).before 0 t d = iblk V c 0 t) ∧ (∀ d, (dat V c).before 1 t d = iblk V c 1 t) ∧ (∀ d, (dat V c).before 2 t d = iblk V c 2 t)
    ∧ (∀ d, (dat V c).before 3 t d = iblk V c 3 t) ∧ (∀ d, (dat V c).before 4 t d = iblk V c 4 t) ∧ (∀ d, (dat V c).before 5 t d = iblk V c 5 t) := by
  refine ⟨?_, ?_, ?_, ?_, ?_, ?_⟩ <;> exact fun d => (dat V c).before_in_eq_fetched _ rfl (fun _ => rfl) (fun _ _ _ => rfl) (fun _ => rfl) t d

-- Every tile is its row's last, so the output is stored at every point.
theorem live : ∀ t : Fin cfg2.N, idle2 6 (grid2.coords t) = false := (by decide +kernel : ∀ t : Fin grid2.N, _)

-- Of the invariant the body uses the accumulator alone; the other scoped buffers are carried unopened.
theorem Phi_eq (c : Dev nD) (p : Fin (cfg2.N + 1)) : (dat V c).Φ p
    = iprop(((∃ d, owns (c : Thread nD τ) scM2_0 fullShare d) ∗ Pipeline.scopedRestBut spec2 c [cc2_scratch0]) ∗ ∃ r, prngReg c r) := by
  show Pipeline.ΦA spec2 c = _
  unfold Pipeline.ΦA; rw [Pipeline.scopedRest_split_of_list spec2 c [cc2_scratch0] (by decide) (by decide)]
  simp only [scM2_0, owns_whole]; rfl

-- Both branches are taken at every point, so the run applies; its output pieces cover the block, so the buffer holds them read back.
theorem body_obligation (c : Dev nD) : BodyObligation (dat (F := F) V c) (defs₀ (F := F)) Variants.none () Set.univ := fun t => by
  rw [bigSep_W2, bigSep_W2]
  show _ ⊢ wp _ _ _ (bodyAt2 t) _
  obtain ⟨b0, b1, b2, b3, b4, b5⟩ := before_in V c t
  obtain ⟨a0, a1, a2, a3, a4, a5, a6⟩ := after_eq V c t
  simp only [b0, b1, b2, b3, b4, b5, a0, a1, a2, a3, a4, a5, a6, Phi_eq]
  rw [live t, show (dat V c).owesAt () t.succ = (dat V c).owesAt () t.castSucc from rfl]; dsimp only
  iintro ⟨⟨⟨⟨%s, HS⟩, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((runAt V c t).2.2 Set.univ _)
  iframe H0 H1 H2 H3 H4 H5
  isplitl [H6]; · iexists _; iexact H6
  isplitl [HS]; · iexists _; iexact HS
  iintro ⟨H0, H1, H2, H3, H4, H5, ⟨%e6, H6⟩, ⟨%es, HS⟩⟩
  iframe HR Hg Ho H0 H1 H2 H3 H4 H5
  isplitl [HS]
  · iexists _; unfold owns; iexists _; isplitr; swap; · iexact HS
    ipureintro; rfl
  unfold owns; iexists _; isplitr; swap; · iexact H6
  ipureintro; exact View.read_writes_of_cover _ _ _ _ _ (cover V c t)

theorem hin (c : Dev nD) : Pipeline.ΦA spec2 c ⊢ (dat V c).Φ 0 := Idealize.SL.BI.Entails.refl _

theorem hout (c : Dev nD) : (dat V c).Φ (Fin.last cfg2.N) ⊢ Pipeline.ΦA spec2 c := Idealize.SL.BI.Entails.refl _

end Cert.Kernel.R2

end
-- ==== Proof.KB.Regs.lean ====
import proofs.«419407_j15839839387757_3_alg».proof.Proof.KB.R0.Body
import proofs.«419407_j15839839387757_3_alg».proof.Proof.KB.R1.Body
import proofs.«419407_j15839839387757_3_alg».proof.Proof.KB.R2.Body
import proofs.«419407_j15839839387757_3_alg».proof.Proof.Gen.Kernel.Regions
import Idealize.ShloMosaic.Lib.Pipeline.RegionsLoop

noncomputable section

namespace Cert.Kernel.Regs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W1 (c : Dev nD) : Valuation τ sig (Elt F) := V1 m c
def o0 (c : Dev nD) : Buf (Elt F) ((c : Thread nD τ).loc main_v8) := (R0.dat (fun c b => W1 m c b) c).arrAt 6 cfg0.N
abbrev W2 (c : Dev nD) : Valuation τ sig (Elt F) := Function.update (W1 m c) main_v8 (o0 m c)
abbrev W3 (c : Dev nD) : Valuation τ sig (Elt F) := StableHlo.after hostOps1 (W2 m c)
def o1 (c : Dev nD) : Buf (Elt F) ((c : Thread nD τ).loc main_v18) := (R1.dat (fun c b => W3 m c b) c).arrAt 6 cfg1.N
abbrev W4 (c : Dev nD) : Valuation τ sig (Elt F) := Function.update (W3 m c) main_v18 (o1 m c)
abbrev W5 (c : Dev nD) : Valuation τ sig (Elt F) := StableHlo.after hostOps2 (W4 m c)
def o2 (c : Dev nD) : Buf (Elt F) ((c : Thread nD τ).loc main_v28) := (R2.dat (fun c b => W5 m c b) c).arrAt 6 cfg2.N
abbrev W6 (c : Dev nD) : Valuation τ sig (Elt F) := Function.update (W5 m c) main_v28 (o2 m c)
abbrev W7 (c : Dev nD) : Valuation τ sig (Elt F) := StableHlo.after hostOps3 (W6 m c)

def outs : Outs (F := F) := fun _ r c =>
  if h : r = main_v8 then h ▸ o0 m c
  else if h : r = main_v18 then h ▸ o1 m c
  else if h : r = main_v28 then h ▸ o2 m c
  else m ((c : Thread nD τ).loc r)

theorem outs_v8 (J : ℕ) (c : Dev nD) : outs m J main_v8 c = o0 m c := by
  unfold outs; rw [dif_pos rfl]
theorem outs_v18 (J : ℕ) (c : Dev nD) : outs m J main_v18 c = o1 m c := by
  unfold outs; rw [dif_neg (by decide), dif_pos rfl]
theorem outs_v28 (J : ℕ) (c : Dev nD) : outs m J main_v28 c = o2 m c := by
  unfold outs; rw [dif_neg (by decide), dif_neg (by decide), dif_pos rfl]

theorem V2_eq (c : Dev nD) : V2 m (outs m) c = W2 m c := by
  show Function.update (V1 m c) main_v8 (outs m 2 main_v8 c) = _; rw [outs_v8]
theorem V3_eq (c : Dev nD) : V3 m (outs m) c = W3 m c := by
  show StableHlo.after hostOps1 (V2 m (outs m) c) = _; rw [V2_eq]
theorem V4_eq (c : Dev nD) : V4 m (outs m) c = W4 m c := by
  show Function.update (V3 m (outs m) c) main_v18 (outs m 4 main_v18 c) = _; rw [outs_v18, V3_eq]
theorem V5_eq (c : Dev nD) : V5 m (outs m) c = W5 m c := by
  show StableHlo.after hostOps2 (V4 m (outs m) c) = _; rw [V4_eq]
theorem V6_eq (c : Dev nD) : V6 m (outs m) c = W6 m c := by
  show Function.update (V5 m (outs m) c) main_v28 (outs m 6 main_v28 c) = _; rw [outs_v28, V5_eq]
theorem V7_eq (c : Dev nD) : V7 m (outs m) c = W7 m c := by
  show StableHlo.after hostOps3 (V6 m (outs m) c) = _; rw [V6_eq]

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

-- The state between two items: the buffers at contents `W`, beside what every item hands on unchanged.
abbrev T (c : Dev nD) (W : Valuation τ sig (Elt F)) : sProp 𝕄 :=
  iprop(StableHlo.held (c : Thread nD τ) (Pipeline.ucRefs τ sig) W ∗ R c)

-- A region writing the single window `o` and owing nothing takes the contents `V` to `V` updated at `o`'s array.
def reg (pd : (p : Fin 3) → (c : Dev nD) → Dat τ (Elt F) Unit ℕ (UR sig nD τ) ℕ (Pipeline.pin (pcfgs (F := F)) adm p) c)
    (p : Fin 3) (lf : Pipeline.LaunchFacts (nD := nD) (τ := τ) cfgs p) (V : Dev nD → Valuation τ sig (Elt F))
    (o : Fin (cfgs p).W) (hio : ∀ w, w ≠ o → ((cfgs p).win w).isOut = false)
    (hA : ∀ c w, (pd p c).A w = V c (Pipeline.arrRef (cfgs p).spec w))
    (hq : ∀ c w, (pd p c).q w = fullShare) (howed : ∀ c t, (pd p c).owed t = 0)
    (hrec : ∀ c x, x ∈ (pd p c).recorded 0)
    (hbody : ∀ c, Pipeline.BodyObligation (pd p c) (defs₀ (F := F)) Variants.none () Set.univ)
    (hin : ∀ c, Pipeline.ΦA (cfgs p).spec c ⊢ (pd p c).Φ 0)
    (hout : ∀ c, (pd p c).Φ (Fin.last (cfgs p).N) ⊢ Pipeline.ΦA (cfgs p).spec c) :
    Pipeline.RegionSeg (pcfgs (F := F)) adm pd () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := T c (V c)
  post c := T c (Function.update (V c) (Pipeline.arrRef (cfgs p).spec o) ((pd p c).arrAt o (cfgs p).N))
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm pd lf.win lf.arr_whole c
      ((pd p c).share_full (hq c)) (fun b => V c b) (hA c)
    rw [Pipeline.unscopedBufs_held] at hsplit
    unfold Pipeline.Dat.owesAt Pipeline.owesWithin Pipeline.prefHeld
    rw [howed c, show (Finset.univ : Finset (Fin 0)) = ∅ from rfl, BI.bigSep_empty]
    iintro ⟨⟨Hub, Hp, %W, HO⟩, -, -⟩
    icases hsplit $$ Hub with ⟨Ha, Hrest⟩
    imodintro
    iframe Ha Hp Hrest
    isplitr; · iempintro
    iexists W; isplitr; · ipureintro; exact fun x _ => Or.inl (hrec c x)
    iexact HO
  hin c := by
    refine .trans ?_ (hin c)
    unfold Pipeline.ΦA
    iintro ⟨Hp, -, Hr⟩; iframe
  hout c := by
    rw [Pipeline.ownSems0_none]
    refine (hout c).trans ?_
    unfold Pipeline.ΦA
    iintro ⟨Hr, Hp⟩; iframe; iempintro
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c)) (fun b => V c b)
      (fun b => Function.update (V c) (Pipeline.arrRef (cfgs p).spec o) ((pd p c).arrAt o (cfgs p).N) b)
      ((pd p c).arrAt · (cfgs p).N)
      (fun w => by
        rcases eq_or_ne w o with rfl | h
        · exact (Function.update_self (Proc.devRef (τ := τ) .tc (Pipeline.arrRef (cfgs p).spec w)) ((pd p c).arrAt w (cfgs p).N) (V c)).symm
        · exact ((pd p c).arrAt_in w (hio w h) _).trans ((hA c w).trans
            (Function.update_of_ne (StableHlo.devRef_ne_of_ne (lf.win.arr_inj.ne h)) _ _).symm))
      (fun b hb => Function.update_of_ne
        (StableHlo.devRef_ne_of_ne fun h => hb (Finset.mem_image.2 ⟨o, Finset.mem_univ _, h.symm⟩)) _ _)
    rw [Pipeline.unscopedBufs_held] at hjoin
    unfold Pipeline.Dat.owesAt Pipeline.owesWithin
    rw [howed c]
    iintro ⟨Ha, ⟨%W, -, HO⟩, HY, Hrest⟩
    imodintro
    isplitl [Ha Hrest]
    · iapply hjoin; iframe
    isplitl [HY]; · iexact HY
    iexists W; iexact HO

def pdats : (p : Fin 3) → (c : Dev nD) → Dat τ (Elt F) Unit ℕ (UR sig nD τ) ℕ (Pipeline.pin (pcfgs (F := F)) adm p) c
  | ⟨0, _⟩ => fun c => R0.dat (fun c b => W1 m c b) c
  | ⟨1, _⟩ => fun c => R1.dat (fun c b => W3 m c b) c
  | ⟨2, _⟩ => fun c => R2.dat (fun c b => W5 m c b) c

def reg0 := reg (pdats m) 0 launch0 (W1 m) (6 : Fin 7) (by decide) (R0.A_eq fun c b => W1 m c b) (fun _ _ => rfl) (fun _ _ => rfl)
  (fun _ _ => trivial) (R0.body_obligation fun c b => W1 m c b) (R0.hin fun c b => W1 m c b) (R0.hout fun c b => W1 m c b)
def reg1 := reg (pdats m) 1 launch1 (W3 m) (6 : Fin 7) (by decide) (R1.A_eq fun c b => W3 m c b) (fun _ _ => rfl) (fun _ _ => rfl)
  (fun _ _ => trivial) (R1.body_obligation fun c b => W3 m c b) (R1.hin fun c b => W3 m c b) (R1.hout fun c b => W3 m c b)
def reg2 := reg (pdats m) 2 launch2 (W5 m) (6 : Fin 7) (by decide) (R2.A_eq fun c b => W5 m c b) (fun _ _ => rfl) (fun _ _ => rfl)
  (fun _ _ => trivial) (R2.body_obligation fun c b => W5 m c b) (R2.hin fun c b => W5 m c b) (R2.hout fun c b => W5 m c b)

abbrev sgs := segs m (outs m) Variants.none L lv (fun _ c => R c) () (pdats m) (reg0 m) (reg1 m) (reg2 m)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem T_congr (c : Dev nD) {W W' : Valuation τ sig (Elt F)} (h : W = W') : T (F := F) c W ⊢ T c W' := h ▸ .rfl

-- The items composed in order: every buffer of every core ends at the last contents.
theorem run_all : θ_run defs (onTc (τ := τ) (main (F := F))) ⟨m, fun _ => 0, ρ⟩ (fun r => ∀ c : Dev nD,
      ∀ b ∈ Pipeline.ucRefs τ sig, r.2.mem (((c : Thread nD τ)).1, b) = V7 m (outs m) c b) := by
  refine Pipeline.θ_run_regions_kit_dev (pcfgs (F := F)) adm (pdats m) () cellOf_inj emb₁ defs₀ Variants.none L lv m ρ main
    (sgs m)
    (fun c Q => (show main (F := F) c = Seg.run (sgs m c) from main_segs _ _ _ _ _ _ _ _ _ _ _ _ _ rfl rfl rfl rfl c) ▸ .rfl)
    (fun c => by simp only [sgs, segs, Seg.pipes_host, Seg.pipes_region, Seg.pipes_nil]; decide)
    (fun _ => 0) (fun _ _ => rfl) (fun _ => BI.emp)
    (initOf (Pipeline.cells cfgs cellOf_inj) (Pipeline.launchToks cfgs cellOf_inj))
    (by rw [BI.bigSep_emp_const]; exact sep_emp.2.trans fupd_intro)
    (T₀ := fun c => T c (V0 m c))
    (Tₙ := fun c => StableHlo.held (c : Thread nD τ) (Pipeline.ucRefs τ sig) (V7 m (outs m) c))
    (hch := fun c => ⟨.rfl, .rfl, T_congr c (V2_eq m c).symm, T_congr c (V3_eq m c), T_congr c (V4_eq m c).symm,
      T_congr c (V5_eq m c), T_congr c (V6_eq m c).symm, sep_mono .rfl sep_elim_right⟩)
    (hinit := (sep_elim_left.trans (bigSep_mono fun c _ => ?_)).trans fupd_intro)
    (QY := fun c s => ∀ b ∈ Pipeline.ucRefs τ sig, s.mem (((c : Thread nD τ)).1, b) = V7 m (outs m) c b)
    (hfin := fun c s' => (pointsTo_read_all _ _ _ s').trans fupd_intro) (hQ := fun _ h => h)
  show (_ : sProp 𝕄) ⊢ _
  unfold T; rw [← Pipeline.unscopedBufs_held (Ix := Unit) (Name := ℕ) (U := UR sig nD τ) (Lvl := ℕ) c (V0 m c)]
  iintro ⟨Hh, -, HO, -, Hp, -⟩
  iframe Hh
  isplitl [Hp]; · iexists _; iexact Hp
  iexists ∅; iexact HO

-- Each named buffer is read off the last contents; no item writes an argument.
theorem run_values : θ_run defs (onTc (τ := τ) (main (F := F))) ⟨m, fun _ => 0, ρ⟩ (fun r => ∀ c : Dev nD,
      r.2.mem ((c.tc : Thread nD τ).loc main_v9) = V7 m (outs m) c main_v9
      ∧ r.2.mem ((c.tc : Thread nD τ).loc main_v19) = V7 m (outs m) c main_v19
      ∧ r.2.mem ((c.tc : Thread nD τ).loc main_v29) = V7 m (outs m) c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => by
    have a := fun b hb => h c (Proc.devRef .tc b) (mem_uc b hb)
    exact ⟨a _ (by decide), a _ (by decide), a _ (by decide),
      (a _ (by decide)).trans (V7_main_arg0 m _ c),
      (a _ (by decide)).trans (V7_main_arg1 m _ c),
      (a _ (by decide)).trans (V7_main_arg2 m _ c),
      (a _ (by decide)).trans (V7_main_arg3 m _ c),
      (a _ (by decide)).trans (V7_main_arg4 m _ c),
      (a _ (by decide)).trans (V7_main_arg5 m _ c),
      (a _ (by decide)).trans (V7_main_arg6 m _ c),
      (a _ (by decide)).trans (V7_main_arg7 m _ c),
      (a _ (by decide)).trans (V7_main_arg8 m _ c),
      (a _ (by decide)).trans (V7_main_arg9 m _ c),
      (a _ (by decide)).trans (V7_main_arg10 m _ c),
      (a _ (by decide)).trans (V7_main_arg11 m _ c),
      (a _ (by decide)).trans (V7_main_arg12 m _ c),
      (a _ (by decide)).trans (V7_main_arg13 m _ c),
      (a _ (by decide)).trans (V7_main_arg14 m _ c),
      (a _ (by decide)).trans (V7_main_arg15 m _ c),
      (a _ (by decide)).trans (V7_main_arg16 m _ c),
      (a _ (by decide)).trans (V7_main_arg17 m _ c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2.2.2) (run_values m ρ)

end Cert.Kernel.Regs

end
-- ==== Proof.KI.R0.Runs.lean ====
import proofs.«419407_j15839839387757_3_alg».proof.Proof.Gen.KernelIdeal.Launch
import proofs.«419407_j15839839387757_3_alg».proof.Proof.Gen.KernelIdeal.Skeleton
import proofs.«419407_j15839839387757_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window `w`'s block at point `t`, read off its array as the region finds it.
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1

-- Point `2 * b + k` is tile `k`: the first conditional (reset) is taken at tile 0, the second (layers and store) at tile 1.
theorem hcond0 : ∀ t : Fin cfg0.N, (cond0_0 (grid0.coords t) ↔ t.val % 2 = 0) ∧ (cond0_1 (grid0.coords t) ↔ ¬t.val % 2 = 0) :=
  (by decide +kernel : ∀ t : Fin grid0.N, (cond0_0 (grid0.coords t) ↔ t.val % 2 = 0) ∧ (cond0_1 (grid0.coords t) ↔ ¬t.val % 2 = 0))

theorem idle0 : ∀ t : Fin cfg0.N, (∀ w : Fin cfg0.W, w.val < 6 → cfg0.idle w (grid0.coords t) = false)
    ∧ (t.val % 2 = 0 → cfg0.idle 6 (grid0.coords t) = true ∧ (cfg0.win 6).flush t = false)
    ∧ (¬t.val % 2 = 0 → cfg0.idle 6 (grid0.coords t) = false) := by decide +kernel

abbrev ms0_0 (t : Fin cfg0.N) : Memref sig .tc .vmem S1x256x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x16384 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x256 .f32 := win0_6.stage (cfg0.slots t 6)
abbrev hs0_6 (t : Fin cfg0.N) : (ms0_6 t).IsWhole := hstage0_6 ((cfg0.slots t 6).cast nbuf0_6)
abbrev scM0_0 : Memref sig .tc .vmem S256x256 .f32 := Memref.whole cc0_scratch0

-- Pieces read back over arbitrary contents: what a buffer they tile holds, whatever it held before.
abbrev rb {sh : Shape} {e : EltTy} (m : Memref sig .tc .vmem sh e) (L : List (View.Piece (Elt F) sh e)) : Vec F sh e :=
  m.view.read (Elt F) (m.view.writes (Elt F) m.view.junk L)

theorem owns_unread {sp : Space} {sh : Shape} {e : EltTy} {m : Memref sig .tc sp sh e} (h : m.IsWhole) (c : Dev nD) (q : PosShare TreeShare)
    (X : sh.Idx → Elt F e) : (owns (c : Thread nD τ) m q X : sProp 𝕄) = (m.view.loc (c : Thread nD τ) ↦[m.view.set]{q} h.unread X) := by
  have h₁ : (owns (c : Thread nD τ) m q X : sProp 𝕄) ⊢ (m.view.loc (c : Thread nD τ) ↦[m.view.set]{q} h.unread X) := by
    unfold owns; iintro ⟨%f, %hf, H⟩; obtain rfl := h.eq_unread hf; iexact H
  have h₂ : (m.view.loc (c : Thread nD τ) ↦[m.view.set]{q} h.unread X : sProp 𝕄) ⊢ owns (c : Thread nD τ) m q X := by
    unfold owns; iintro H; iexists _; isplitr; · ipureintro; exact h.read_unread X
    iexact H
  exact BI.equiv_iff.mp ⟨h₁, h₂⟩

-- The resting invariant is the accumulator at some contents, beside a remainder this region never touches and the generator register.
theorem PhiA0_split (c : Dev nD) : ∃ R : sProp 𝕄,
    (Pipeline.ΦA spec0 c : sProp 𝕄) = iprop(iprop((∃ d, owns (c : Thread nD τ) scM0_0 fullShare d) ∗ R) ∗ (∃ r, prngReg c r)) := by
  unfold Pipeline.ΦA; rw [scopedRest0_eq]; simp only [scM0_0, owns_whole]; exact ⟨_, rfl⟩

def restS (c : Dev nD) : sProp 𝕄 := (PhiA0_split (F := F) c).choose

theorem PhiA0_eq (c : Dev nD) :
    (Pipeline.ΦA spec0 c : sProp 𝕄) = iprop(iprop((∃ d, owns (c : Thread nD τ) scM0_0 fullShare d) ∗ restS (F := F) c) ∗ (∃ r, prngReg c r)) :=
  (PhiA0_split c).choose_spec

end Cert.KernelIdeal.R0

end
-- ==== Proof.KI.R0.RunA.lean ====
import proofs.«419407_j15839839387757_3_alg».proof.Proof.KI.R0.Runs

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

-- The six inputs' memrefs at their contents, beside `R`.
def inputs (c : Dev nD) (arg2 : Memref sig .tc .vmem S1x256x8192 .f32) (arg3 : Memref sig .tc .vmem S256x16384 .bf16) (arg4 : Memref sig .tc .vmem S256x256 .f32) (arg5 : Memref sig .tc .vmem S256x1 .f32) (arg6 : Memref sig .tc .vmem S256x256 .f32) (arg7 : Memref sig .tc .vmem S256x1 .f32)
    (x0 : Vec F S1x256x8192 .f32) (x1 : Vec F S256x16384 .bf16) (x2 : Vec F S256x256 .f32) (x3 : Vec F S256x1 .f32) (x4 : Vec F S256x256 .f32) (x5 : Vec F S256x1 .f32) (R : sProp 𝕄) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ R)

-- The accumulator's pieces at an even point (the reset, then the first tile's update), with the run: the inputs are handed back as found, the accumulator holds its pieces read back.
noncomputable def kernelRun0_A (c : Dev nD) (i : grid0.Coords) {arg2 : Memref sig .tc .vmem S1x256x8192 .f32} (harg2 : arg2.IsWhole) {arg3 : Memref sig .tc .vmem S256x16384 .bf16} (harg3 : arg3.IsWhole) {arg4 : Memref sig .tc .vmem S256x256 .f32} (harg4 : arg4.IsWhole) {arg5 : Memref sig .tc .vmem S256x1 .f32} (harg5 : arg5.IsWhole) {arg6 : Memref sig .tc .vmem S256x256 .f32} (harg6 : arg6.IsWhole) {arg7 : Memref sig .tc .vmem S256x1 .f32} (harg7 : arg7.IsWhole) {arg8 : Memref sig .tc .vmem S1x256x256 .f32} (harg8 : arg8.IsWhole) {arg9 : Memref sig .tc .vmem S256x256 .f32} (harg9 : arg9.IsWhole) (hc0 : cond0_0 i) (hc1 : ¬cond0_1 i)
    (x0 : Vec F S1x256x8192 .f32) (x1 : Vec F S256x16384 .bf16) (x2 : Vec F S256x256 .f32) (x3 : Vec F S256x1 .f32) (x4 : Vec F S256x256 .f32) (x5 : Vec F S256x1 .f32) :
    { LS0 : List (View.Piece (Elt F) S256x256 .f32) // ∀ (d : Vec F S256x256 .f32) (E : Set ℕ) (K : PUnit → sProp 𝕄),
        inputs c arg2 arg3 arg4 arg5 arg6 arg7 x0 x1 x2 x3 x4 x5 iprop(owns (c : Thread nD τ) arg9 fullShare d
            ∗ (inputs c arg2 arg3 arg4 arg5 arg6 arg7 x0 x1 x2 x3 x4 x5 (owns (c : Thread nD τ) arg9 fullShare (rb arg9 LS0)) -∗ K ⟨⟩))
          ⊢ wp frame (wpE (defs₀ (F := F)) Variants.none c none) E
              (cc0__gather_mlp_kernel i arg2 harg2 arg3 harg3 arg4 harg4 arg5 harg5 arg6 harg6 arg7 harg7 arg8 harg8 arg9 harg9) K } := by
  refine ⟨?_, fun d E K => ?run⟩
  case run =>
    unfold inputs
    rw [owns_unread harg2, owns_unread harg3, owns_unread harg4, owns_unread harg5, owns_unread harg6, owns_unread harg7, owns_unread harg9 c fullShare d]
    simp only [cc0__gather_mlp_kernel_eq_skeleton]; unfold cc0__gather_mlp_kernel_skel
    iintro ⟨H0, H1, H2, H3, H4, H5, HS0, Hk⟩
    sl_exec (disch := first | exact hc0 | exact hc1)
    sl_step
    iapply Hk
    iframe H0 H1 H2 H3 H4 H5
    ihave H' := (Ring.owns_of_writes_tiledL arg9.view S256x256.size) $$ HS0
    iapply H'; ipureintro; sl_kernel_rfl

end Cert.KernelIdeal.R0

end
-- ==== Proof.KI.R0.RunB.lean ====
import proofs.«419407_j15839839387757_3_alg».proof.Proof.KI.R0.RunA

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

-- The output's and the accumulator's pieces at an odd point (the second tile's update over `xs0`; the two layers and the normalisation of it, stored whole), with the run.
noncomputable def kernelRun0_B (c : Dev nD) (i : grid0.Coords) {arg2 : Memref sig .tc .vmem S1x256x8192 .f32} (harg2 : arg2.IsWhole) {arg3 : Memref sig .tc .vmem S256x16384 .bf16} (harg3 : arg3.IsWhole) {arg4 : Memref sig .tc .vmem S256x256 .f32} (harg4 : arg4.IsWhole) {arg5 : Memref sig .tc .vmem S256x1 .f32} (harg5 : arg5.IsWhole) {arg6 : Memref sig .tc .vmem S256x256 .f32} (harg6 : arg6.IsWhole) {arg7 : Memref sig .tc .vmem S256x1 .f32} (harg7 : arg7.IsWhole) {arg8 : Memref sig .tc .vmem S1x256x256 .f32} (harg8 : arg8.IsWhole) {arg9 : Memref sig .tc .vmem S256x256 .f32} (harg9 : arg9.IsWhole) (hc0 : ¬cond0_0 i) (hc1 : cond0_1 i)
    (x0 : Vec F S1x256x8192 .f32) (x1 : Vec F S256x16384 .bf16) (x2 : Vec F S256x256 .f32) (x3 : Vec F S256x1 .f32) (x4 : Vec F S256x256 .f32) (x5 : Vec F S256x1 .f32) (xs0 : Vec F S256x256 .f32) :
    Σ' (L6 : List (View.Piece (Elt F) S1x256x256 .f32)), { LS0 : List (View.Piece (Elt F) S256x256 .f32) //
      ∀ (d6 : Vec F S1x256x256 .f32) (E : Set ℕ) (K : PUnit → sProp 𝕄),
        inputs c arg2 arg3 arg4 arg5 arg6 arg7 x0 x1 x2 x3 x4 x5 iprop(owns (c : Thread nD τ) arg8 fullShare d6 ∗ owns (c : Thread nD τ) arg9 fullShare xs0
            ∗ (inputs c arg2 arg3 arg4 arg5 arg6 arg7 x0 x1 x2 x3 x4 x5 iprop(owns (c : Thread nD τ) arg8 fullShare (rb arg8 L6) ∗ owns (c : Thread nD τ) arg9 fullShare (rb arg9 LS0)) -∗ K ⟨⟩))
          ⊢ wp frame (wpE (defs₀ (F := F)) Variants.none c none) E
              (cc0__gather_mlp_kernel i arg2 harg2 arg3 harg3 arg4 harg4 arg5 harg5 arg6 harg6 arg7 harg7 arg8 harg8 arg9 harg9) K } := by
  refine ⟨?_, ?_, fun d6 E K => ?run⟩
  case run =>
    unfold inputs
    rw [owns_unread harg2, owns_unread harg3, owns_unread harg4, owns_unread harg5, owns_unread harg6, owns_unread harg7,
      owns_unread harg8 c fullShare d6, owns_unread harg9 c fullShare xs0]
    simp only [cc0__gather_mlp_kernel_eq_skeleton]; unfold cc0__gather_mlp_kernel_skel
    iintro ⟨H0, H1, H2, H3, H4, H5, H6, HS0, Hk⟩
    sl_exec (disch := first | exact hc0 | exact hc1)
    sl_step
    iapply Hk
    iframe H0 H1 H2 H3 H4 H5
    isplitl [H6]
    · ihave H' := (Ring.owns_of_writes_tiledL arg8.view S1x256x256.size) $$ H6
      iapply H'; ipureintro; sl_kernel_rfl
    ihave H' := (Ring.owns_of_writes_tiledL arg9.view S256x256.size) $$ HS0
    iapply H'; ipureintro; sl_kernel_rfl

end Cert.KernelIdeal.R0

end
-- ==== Proof.KI.R0.Body.lean ====
import proofs.«419407_j15839839387757_3_alg».proof.Proof.KI.R0.RunB

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- The even point's run on point `t`'s own memrefs and blocks.
def runA (c : Dev nD) (t : Fin cfg0.N) (h : t.val % 2 = 0) :=
  kernelRun0_A c (grid0.coords t) (hs0_0 t) (hs0_1 t) (hs0_2 t) (hs0_3 t) (hs0_4 t) (hs0_5 t) (hs0_6 t) (Memref.isWhole_whole cc0_scratch0) ((hcond0 t).1.mpr h) (fun h' => (hcond0 t).2.mp h' h) (iblk V c 0 t) (iblk V c 1 t) (iblk V c 2 t) (iblk V c 3 t) (iblk V c 4 t) (iblk V c 5 t)

-- What the even point before an odd point left in the accumulator.
def prevAcc (c : Dev nD) (t : Fin cfg0.N) (h : ¬t.val % 2 = 0) : Vec F S256x256 .f32 :=
  rb scM0_0 (runA V c ⟨t.val - 1, lt_of_le_of_lt (Nat.sub_le _ _) t.isLt⟩ (by show (t.val - 1) % 2 = 0; omega)).1

-- The odd point's run, over what the even point before it left in the accumulator.
def runB (c : Dev nD) (t : Fin cfg0.N) (h : ¬t.val % 2 = 0) :=
  kernelRun0_B c (grid0.coords t) (hs0_0 t) (hs0_1 t) (hs0_2 t) (hs0_3 t) (hs0_4 t) (hs0_5 t) (hs0_6 t) (Memref.isWhole_whole cc0_scratch0) (fun h' => h ((hcond0 t).1.mp h')) ((hcond0 t).2.mpr h) (iblk V c 0 t) (iblk V c 1 t) (iblk V c 2 t) (iblk V c 3 t) (iblk V c 4 t) (iblk V c 5 t) (prevAcc V c t h)

-- What the output's buffer and the accumulator hold after point `t`; an even point stores nothing into the output, so its first component is never read.
def outsAt (c : Dev nD) (t : Fin cfg0.N) : Vec F S1x256x256 .f32 × Vec F S256x256 .f32 :=
  if h : t.val % 2 = 0 then (rb (ms0_6 t) [], rb scM0_0 (runA V c t h).1)
  else (rb (ms0_6 t) (runB V c t h).1, rb scM0_0 (runB V c t h).2.1)

-- The invariant between points: the accumulator at `x`, beside that remainder and the generator register.
def accInv (c : Dev nD) (x : Vec F S256x256 .f32) : sProp 𝕄 :=
  iprop(iprop(owns (c : Thread nD τ) scM0_0 fullShare x ∗ restS (F := F) c) ∗ (∃ r, prngReg c r))

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt V c t).1
  Φ
    | ⟨0, _⟩ => Pipeline.ΦA spec0 c
    | ⟨n + 1, h⟩ => accInv c (outsAt V c ⟨n, Nat.lt_of_succ_lt_succ h⟩).2
  q _ := fullShare
  owed _ := 0

theorem A_eq (c : Dev nD) (w : Fin cfg0.W) : (dat V c).A w = V c (Pipeline.arrRef spec0 w) := rfl

theorem Phi_succ (c : Dev nD) (t : Fin cfg0.N) : (dat V c).Φ t.succ = accInv c (outsAt V c t).2 := rfl

theorem outsAt_even (c : Dev nD) (t : Fin cfg0.N) (h : t.val % 2 = 0) : (outsAt V c t).2 = rb scM0_0 (runA V c t h).1 := by
  rw [outsAt, dif_pos h]

-- Before an odd point the accumulator is at what the even point before it left.
theorem Phi_odd (c : Dev nD) (t : Fin cfg0.N) (h : ¬t.val % 2 = 0) :
    (dat V c).Φ t.castSucc = accInv c (prevAcc V c t h) := by
  obtain ⟨_ | n, hn⟩ := t
  · exact absurd rfl h
  · exact congrArg (accInv c) (outsAt_even V c _ _)

-- The invariant at any point gives the resting one: the accumulator's named contents are forgotten.
theorem Phi_rest (c : Dev nD) (s : Fin (cfg0.N + 1)) :
    (dat V c).Φ s ⊢ iprop(iprop((∃ d, owns (c : Thread nD τ) scM0_0 fullShare d) ∗ restS (F := F) c) ∗ (∃ r, prngReg c r)) := by
  obtain ⟨_ | n, hn⟩ := s
  · show Pipeline.ΦA spec0 c ⊢ _; rw [PhiA0_eq]
  · show accInv c _ ⊢ _; unfold accInv
    iintro ⟨⟨HS, HR⟩, Hg⟩; iframe HR Hg; iexists _; iexact HS

theorem before_in (c : Dev nD) (w : Fin cfg0.W) (hw : w.val < 6) (t : Fin cfg0.N) (d) : (dat V c).before w t d = (dat V c).fetched w t d := by
  rcases w with ⟨_|_|_|_|_|_|n, hn⟩
  iterate 6 exact (dat V c).before_in_eq_fetched _ rfl (fun _ => rfl) (fun _ _ _ => rfl) (fun _ => rfl) t d
  exact absurd hw (by dsimp only; omega)

def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d)))

def bodyPost (c : Dev nD) (t : Fin cfg0.N) : sProp 𝕄 :=
  iprop((dat V c).Φ t.succ ∗ (dat V c).owesAt () t.castSucc ∗ inputs c (ms0_0 t) (ms0_1 t) (ms0_2 t) (ms0_3 t) (ms0_4 t) (ms0_5 t) (iblk V c 0 t) (iblk V c 1 t) (iblk V c 2 t) (iblk V c 3 t) (iblk V c 4 t) (iblk V c 5 t) ((dat V c).leavesExact 6 t))

-- The body at any point: the parity of the point decides the two conditionals; the invariant lends the accumulator and takes it back at the point's contents.
theorem sound_body (c : Dev nD) (t : Fin cfg0.N) :
    bodyPre V c t ⊢ wp frame (wpE (defs₀ (F := F)) Variants.none c none) Set.univ (bodyAt0 t) (fun _ => bodyPost V c t) := by
  unfold bodyPre bodyPost
  have hb := fun w hw => before_in V c w hw t
  simp only [show ∀ d, _ = iblk V c 0 t from hb 0 (by decide), show ∀ d, _ = iblk V c 1 t from hb 1 (by decide), show ∀ d, _ = iblk V c 2 t from hb 2 (by decide),
    show ∀ d, _ = iblk V c 3 t from hb 3 (by decide), show ∀ d, _ = iblk V c 4 t from hb 4 (by decide), show ∀ d, _ = iblk V c 5 t from hb 5 (by decide)]
  rw [Phi_succ]
  obtain ⟨-, hA, hB⟩ := idle0 t
  by_cases h : t.val % 2 = 0
  · rw [Dat.leavesExact_idle _ 6 t (hA h).1 (hA h).2, outsAt, dif_pos h]
    refine (sep_mono_left (Phi_rest V c _)).trans ?_
    iintro ⟨⟨⟨⟨%d, HS⟩, HR⟩, Hg⟩, Ho, ⟨%d0, H0⟩, ⟨%d1, H1⟩, ⟨%d2, H2⟩, ⟨%d3, H3⟩, ⟨%d4, H4⟩, ⟨%d5, H5⟩, H6⟩
    iapply (runA V c t h).2 d Set.univ
    unfold inputs accInv
    iframe H0 H1 H2 H3 H4 H5 HS
    iintro ⟨H0, H1, H2, H3, H4, H5, HS⟩
    iframe HS HR Hg Ho H0 H1 H2 H3 H4 H5
    iexact H6
  · rw [show (dat V c).leavesExact 6 t = owns (c : Thread nD τ) (ms0_6 t) fullShare (outsAt V c t).1 from by
      unfold Dat.leavesExact; rw [hB h]; rfl, outsAt, dif_neg h, Phi_odd V c t h]
    unfold accInv
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (runB V c t h).2.2 _ Set.univ
    unfold inputs
    iframe H0 H1 H2 H3 H4 H5 H6 HS
    iintro ⟨H0, H1, H2, H3, H4, H5, H6, HS⟩
    iframe

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := Entails.refl _

theorem hout (c : Dev nD) : (dat V c).Φ (Fin.last cfg0.N) ⊢ Pipeline.ΦA spec0 c := by
  rw [PhiA0_eq]; exact Phi_rest V c _

end Cert.KernelIdeal.R0

end
-- ==== Proof.KI.R1.Runs.lean ====
import proofs.«419407_j15839839387757_3_alg».proof.Proof.Gen.KernelIdeal.Launch
import proofs.«419407_j15839839387757_3_alg».proof.Proof.Gen.KernelIdeal.Skeleton
import proofs.«419407_j15839839387757_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1
-- One tile per batch row: every tile is both the first and the last of its row.
theorem hcond1 : ∀ t : Fin cfg1.N, cond1_0 (grid1.coords t) ∧ cond1_1 (grid1.coords t) :=
  (by decide +kernel : ∀ t : Fin grid1.N, cond1_0 (grid1.coords t) ∧ cond1_1 (grid1.coords t))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1_0 : Memref sig .tc .vmem S512x256 .f32 := Memref.whole cc1_scratch0

end Cert.KernelIdeal.R1

end
-- ==== Proof.KI.R1.RunA.lean ====
import proofs.«419407_j15839839387757_3_alg».proof.Proof.KI.R1.Runs

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body on whole memrefs with both branches taken: inputs come back as found; the output buffer and the accumulator come back overwritten by the pieces the stores wrote.
noncomputable def kernelRun1_A (c : Dev nD) (i : grid1.Coords)
    (arg2 : Memref sig .tc .vmem S1x512x4096 .f32) (harg2 : arg2.IsWhole) (arg3 : Memref sig .tc .vmem S256x4096 .bf16) (harg3 : arg3.IsWhole)
    (arg4 : Memref sig .tc .vmem S512x256 .f32) (harg4 : arg4.IsWhole) (arg5 : Memref sig .tc .vmem S256x1 .f32) (harg5 : arg5.IsWhole)
    (arg6 : Memref sig .tc .vmem S256x256 .f32) (harg6 : arg6.IsWhole) (arg7 : Memref sig .tc .vmem S256x1 .f32) (harg7 : arg7.IsWhole)
    (arg8 : Memref sig .tc .vmem S1x256x256 .f32) (harg8 : arg8.IsWhole) (arg9 : Memref sig .tc .vmem S512x256 .f32) (harg9 : arg9.IsWhole)
    (hc0 : cond1_0 i) (hc1 : cond1_1 i)
    (x0 : Vec F S1x512x4096 .f32) (x1 : Vec F S256x4096 .bf16) (x2 : Vec F S512x256 .f32) (x3 : Vec F S256x1 .f32) (x4 : Vec F S256x256 .f32) (x5 : Vec F S256x1 .f32) :
    Σ' (L6 : List (View.Piece (Elt F) S1x256x256 .f32)), { LS0 : List (View.Piece (Elt F) S512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)) -∗ K ⟨⟩))
          ⊢ wp frame (wpE (defs₀ (F := F)) Variants.none c none) E
              (cc1__gather_mlp_kernel i arg2 harg2 arg3 harg3 arg4 harg4 arg5 harg5 arg6 harg6 arg7 harg7 arg8 harg8 arg9 harg9) K } := by
  refine ⟨?_, ?_, fun E K => ?run⟩
  case run =>
    simp only [cc1__gather_mlp_kernel_eq_skeleton]; unfold cc1__gather_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.R1

end
-- ==== Proof.KI.R1.Body.lean ====
import proofs.«419407_j15839839387757_3_alg».proof.Proof.KI.R1.RunA

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev VO1_6 : View sig .tc .vmem S1x256x256 .f32 := (Memref.whole cc1_stg6_0 : Memref sig .tc .vmem S1x256x256 .f32).view

-- The run at point `t`, fed the six input blocks there.
def runAt (c : Dev nD) (t : Fin cfg1.N) :=
  kernelRun1_A c (grid1.coords t) (st1_0 t) (stage_whole1 0 _) (st1_1 t) (stage_whole1 1 _) (st1_2 t) (stage_whole1 2 _) (st1_3 t) (stage_whole1 3 _) (st1_4 t) (stage_whole1 4 _) (st1_5 t) (stage_whole1 5 _) (st1_6 t) (stage_whole1 6 _) scM1_0 (Memref.isWhole_whole _) (hcond1 t).1 (hcond1 t).2
    (iblk V c 0 t) (iblk V c 1 t) (iblk V c 2 t) (iblk V c 3 t) (iblk V c 4 t) (iblk V c 5 t)

-- The output's pieces are one store of its whole block.
theorem cover (c : Dev nD) (t : Fin cfg1.N) (y : S1x256x256.Idx) : ∃ pc ∈ (runAt V c t).1, y ∈ pc.1.set :=
  View.cover_of_tiledL _ S1x256x256.size (by sl_kernel_rfl) y

def out (c : Dev nD) (t : Fin cfg1.N) : Vec F S1x256x256 .f32 :=
  VO1_6.read (Elt F) (VO1_6.writes (Elt F) VO1_6.junk (runAt V c t).1)

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out V c t
  Φ _ := Pipeline.ΦA spec1 c
  q _ := fullShare
  owed _ := 0

theorem A_eq (c : Dev nD) (w : Fin cfg1.W) : (dat V c).A w = V c (Pipeline.arrRef spec1 w) := rfl

theorem after_eq (c : Dev nD) (t : Fin cfg1.N) :
    (dat V c).after 0 t = iblk V c 0 t ∧ (dat V c).after 1 t = iblk V c 1 t ∧ (dat V c).after 2 t = iblk V c 2 t ∧ (dat V c).after 3 t = iblk V c 3 t
    ∧ (dat V c).after 4 t = iblk V c 4 t ∧ (dat V c).after 5 t = iblk V c 5 t ∧ (dat V c).after 6 t = out V c t := by
  dsimp only [dat]; exact ⟨rfl, rfl, rfl, rfl, rfl, rfl, rfl⟩

theorem before_in (c : Dev nD) (t : Fin cfg1.N) :
    (∀ d, (dat V c).before 0 t d = iblk V c 0 t) ∧ (∀ d, (dat V c).before 1 t d = iblk V c 1 t) ∧ (∀ d, (dat V c).before 2 t d = iblk V c 2 t)
    ∧ (∀ d, (dat V c).before 3 t d = iblk V c 3 t) ∧ (∀ d, (dat V c).before 4 t d = iblk V c 4 t) ∧ (∀ d, (dat V c).before 5 t d = iblk V c 5 t) := by
  refine ⟨?_, ?_, ?_, ?_, ?_, ?_⟩ <;> exact fun d => (dat V c).before_in_eq_fetched _ rfl (fun _ => rfl) (fun _ _ _ => rfl) (fun _ => rfl) t d

-- Every tile is its row's last, so the output is stored at every point.
theorem live : ∀ t : Fin cfg1.N, idle1 6 (grid1.coords t) = false := (by decide +kernel : ∀ t : Fin grid1.N, _)

-- Of the invariant the body uses the accumulator alone; the other scoped buffers are carried unopened.
theorem Phi_eq (c : Dev nD) (p : Fin (cfg1.N + 1)) : (dat V c).Φ p
    = iprop(((∃ d, owns (c : Thread nD τ) scM1_0 fullShare d) ∗ Pipeline.scopedRestBut spec1 c [cc1_scratch0]) ∗ ∃ r, prngReg c r) := by
  show Pipeline.ΦA spec1 c = _
  unfold Pipeline.ΦA; rw [Pipeline.scopedRest_split_of_list spec1 c [cc1_scratch0] (by decide) (by decide)]
  simp only [scM1_0, owns_whole]; rfl

-- Both branches are taken at every point, so the run applies; its output pieces cover the block, so the buffer holds them read back.
theorem body_obligation (c : Dev nD) : BodyObligation (dat (F := F) V c) (defs₀ (F := F)) Variants.none () Set.univ := fun t => by
  rw [bigSep_W1, bigSep_W1]
  show _ ⊢ wp _ _ _ (bodyAt1 t) _
  obtain ⟨b0, b1, b2, b3, b4, b5⟩ := before_in V c t
  obtain ⟨a0, a1, a2, a3, a4, a5, a6⟩ := after_eq V c t
  simp only [b0, b1, b2, b3, b4, b5, a0, a1, a2, a3, a4, a5, a6, Phi_eq]
  rw [live t, show (dat V c).owesAt () t.succ = (dat V c).owesAt () t.castSucc from rfl]; dsimp only
  iintro ⟨⟨⟨⟨%s, HS⟩, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((runAt V c t).2.2 Set.univ _)
  iframe H0 H1 H2 H3 H4 H5
  isplitl [H6]; · iexists _; iexact H6
  isplitl [HS]; · iexists _; iexact HS
  iintro ⟨H0, H1, H2, H3, H4, H5, ⟨%e6, H6⟩, ⟨%es, HS⟩⟩
  iframe HR Hg Ho H0 H1 H2 H3 H4 H5
  isplitl [HS]
  · iexists _; unfold owns; iexists _; isplitr; swap; · iexact HS
    ipureintro; rfl
  unfold owns; iexists _; isplitr; swap; · iexact H6
  ipureintro; exact View.read_writes_of_cover _ _ _ _ _ (cover V c t)

theorem hin (c : Dev nD) : Pipeline.ΦA spec1 c ⊢ (dat V c).Φ 0 := Idealize.SL.BI.Entails.refl _

theorem hout (c : Dev nD) : (dat V c).Φ (Fin.last cfg1.N) ⊢ Pipeline.ΦA spec1 c := Idealize.SL.BI.Entails.refl _

end Cert.KernelIdeal.R1

end
-- ==== Proof.KI.R2.Runs.lean ====
import proofs.«419407_j15839839387757_3_alg».proof.Proof.Gen.KernelIdeal.Launch
import proofs.«419407_j15839839387757_3_alg».proof.Proof.Gen.KernelIdeal.Skeleton
import proofs.«419407_j15839839387757_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 1).val) 0#32)) 0#32) = 1#1
abbrev cond2_1 (i : grid2.Coords) : Prop := k2_cond2 i = 1#1
-- One tile per batch row: every tile is both the first and the last of its row.
theorem hcond2 : ∀ t : Fin cfg2.N, cond2_0 (grid2.coords t) ∧ cond2_1 (grid2.coords t) :=
  (by decide +kernel : ∀ t : Fin grid2.N, cond2_0 (grid2.coords t) ∧ cond2_1 (grid2.coords t))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2_0 : Memref sig .tc .vmem S1024x256 .f32 := Memref.whole cc2_scratch0

end Cert.KernelIdeal.R2

end
-- ==== Proof.KI.R2.RunA.lean ====
import proofs.«419407_j15839839387757_3_alg».proof.Proof.KI.R2.Runs

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body on whole memrefs with both branches taken: inputs come back as found; the output buffer and the accumulator come back overwritten by the pieces the stores wrote.
noncomputable def kernelRun2_A (c : Dev nD) (i : grid2.Coords)
    (arg2 : Memref sig .tc .vmem S1x1024x1024 .f32) (harg2 : arg2.IsWhole) (arg3 : Memref sig .tc .vmem S256x1024 .bf16) (harg3 : arg3.IsWhole)
    (arg4 : Memref sig .tc .vmem S1024x256 .f32) (harg4 : arg4.IsWhole) (arg5 : Memref sig .tc .vmem S256x1 .f32) (harg5 : arg5.IsWhole)
    (arg6 : Memref sig .tc .vmem S256x256 .f32) (harg6 : arg6.IsWhole) (arg7 : Memref sig .tc .vmem S256x1 .f32) (harg7 : arg7.IsWhole)
    (arg8 : Memref sig .tc .vmem S1x256x256 .f32) (harg8 : arg8.IsWhole) (arg9 : Memref sig .tc .vmem S1024x256 .f32) (harg9 : arg9.IsWhole)
    (hc0 : cond2_0 i) (hc1 : cond2_1 i)
    (x0 : Vec F S1x1024x1024 .f32) (x1 : Vec F S256x1024 .bf16) (x2 : Vec F S1024x256 .f32) (x3 : Vec F S256x1 .f32) (x4 : Vec F S256x256 .f32) (x5 : Vec F S256x1 .f32) :
    Σ' (L6 : List (View.Piece (Elt F) S1x256x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0)) -∗ K ⟨⟩))
          ⊢ wp frame (wpE (defs₀ (F := F)) Variants.none c none) E
              (cc2__gather_mlp_kernel i arg2 harg2 arg3 harg3 arg4 harg4 arg5 harg5 arg6 harg6 arg7 harg7 arg8 harg8 arg9 harg9) K } := by
  refine ⟨?_, ?_, fun E K => ?run⟩
  case run =>
    simp only [cc2__gather_mlp_kernel_eq_skeleton]; unfold cc2__gather_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.R2

end
-- ==== Proof.KI.R2.Body.lean ====
import proofs.«419407_j15839839387757_3_alg».proof.Proof.KI.R2.RunA

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev VO2_6 : View sig .tc .vmem S1x256x256 .f32 := (Memref.whole cc2_stg6_0 : Memref sig .tc .vmem S1x256x256 .f32).view

-- The run at point `t`, fed the six input blocks there.
def runAt (c : Dev nD) (t : Fin cfg2.N) :=
  kernelRun2_A c (grid2.coords t) (st2_0 t) (stage_whole2 0 _) (st2_1 t) (stage_whole2 1 _) (st2_2 t) (stage_whole2 2 _) (st2_3 t) (stage_whole2 3 _) (st2_4 t) (stage_whole2 4 _) (st2_5 t) (stage_whole2 5 _) (st2_6 t) (stage_whole2 6 _) scM2_0 (Memref.isWhole_whole _) (hcond2 t).1 (hcond2 t).2
    (iblk V c 0 t) (iblk V c 1 t) (iblk V c 2 t) (iblk V c 3 t) (iblk V c 4 t) (iblk V c 5 t)

-- The output's pieces are one store of its whole block.
theorem cover (c : Dev nD) (t : Fin cfg2.N) (y : S1x256x256.Idx) : ∃ pc ∈ (runAt V c t).1, y ∈ pc.1.set :=
  View.cover_of_tiledL _ S1x256x256.size (by sl_kernel_rfl) y

def out (c : Dev nD) (t : Fin cfg2.N) : Vec F S1x256x256 .f32 :=
  VO2_6.read (Elt F) (VO2_6.writes (Elt F) VO2_6.junk (runAt V c t).1)

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out V c t
  Φ _ := Pipeline.ΦA spec2 c
  q _ := fullShare
  owed _ := 0

theorem A_eq (c : Dev nD) (w : Fin cfg2.W) : (dat V c).A w = V c (Pipeline.arrRef spec2 w) := rfl

theorem after_eq (c : Dev nD) (t : Fin cfg2.N) :
    (dat V c).after 0 t = iblk V c 0 t ∧ (dat V c).after 1 t = iblk V c 1 t ∧ (dat V c).after 2 t = iblk V c 2 t ∧ (dat V c).after 3 t = iblk V c 3 t
    ∧ (dat V c).after 4 t = iblk V c 4 t ∧ (dat V c).after 5 t = iblk V c 5 t ∧ (dat V c).after 6 t = out V c t := by
  dsimp only [dat]; exact ⟨rfl, rfl, rfl, rfl, rfl, rfl, rfl⟩

theorem before_in (c : Dev nD) (t : Fin cfg2.N) :
    (∀ d, (dat V c).before 0 t d = iblk V c 0 t) ∧ (∀ d, (dat V c).before 1 t d = iblk V c 1 t) ∧ (∀ d, (dat V c).before 2 t d = iblk V c 2 t)
    ∧ (∀ d, (dat V c).before 3 t d = iblk V c 3 t) ∧ (∀ d, (dat V c).before 4 t d = iblk V c 4 t) ∧ (∀ d, (dat V c).before 5 t d = iblk V c 5 t) := by
  refine ⟨?_, ?_, ?_, ?_, ?_, ?_⟩ <;> exact fun d => (dat V c).before_in_eq_fetched _ rfl (fun _ => rfl) (fun _ _ _ => rfl) (fun _ => rfl) t d

-- Every tile is its row's last, so the output is stored at every point.
theorem live : ∀ t : Fin cfg2.N, idle2 6 (grid2.coords t) = false := (by decide +kernel : ∀ t : Fin grid2.N, _)

-- Of the invariant the body uses the accumulator alone; the other scoped buffers are carried unopened.
theorem Phi_eq (c : Dev nD) (p : Fin (cfg2.N + 1)) : (dat V c).Φ p
    = iprop(((∃ d, owns (c : Thread nD τ) scM2_0 fullShare d) ∗ Pipeline.scopedRestBut spec2 c [cc2_scratch0]) ∗ ∃ r, prngReg c r) := by
  show Pipeline.ΦA spec2 c = _
  unfold Pipeline.ΦA; rw [Pipeline.scopedRest_split_of_list spec2 c [cc2_scratch0] (by decide) (by decide)]
  simp only [scM2_0, owns_whole]; rfl

-- Both branches are taken at every point, so the run applies; its output pieces cover the block, so the buffer holds them read back.
theorem body_obligation (c : Dev nD) : BodyObligation (dat (F := F) V c) (defs₀ (F := F)) Variants.none () Set.univ := fun t => by
  rw [bigSep_W2, bigSep_W2]
  show _ ⊢ wp _ _ _ (bodyAt2 t) _
  obtain ⟨b0, b1, b2, b3, b4, b5⟩ := before_in V c t
  obtain ⟨a0, a1, a2, a3, a4, a5, a6⟩ := after_eq V c t
  simp only [b0, b1, b2, b3, b4, b5, a0, a1, a2, a3, a4, a5, a6, Phi_eq]
  rw [live t, show (dat V c).owesAt () t.succ = (dat V c).owesAt () t.castSucc from rfl]; dsimp only
  iintro ⟨⟨⟨⟨%s, HS⟩, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((runAt V c t).2.2 Set.univ _)
  iframe H0 H1 H2 H3 H4 H5
  isplitl [H6]; · iexists _; iexact H6
  isplitl [HS]; · iexists _; iexact HS
  iintro ⟨H0, H1, H2, H3, H4, H5, ⟨%e6, H6⟩, ⟨%es, HS⟩⟩
  iframe HR Hg Ho H0 H1 H2 H3 H4 H5
  isplitl [HS]
  · iexists _; unfold owns; iexists _; isplitr; swap; · iexact HS
    ipureintro; rfl
  unfold owns; iexists _; isplitr; swap; · iexact H6
  ipureintro; exact View.read_writes_of_cover _ _ _ _ _ (cover V c t)

theorem hin (c : Dev nD) : Pipeline.ΦA spec2 c ⊢ (dat V c).Φ 0 := Idealize.SL.BI.Entails.refl _

theorem hout (c : Dev nD) : (dat V c).Φ (Fin.last cfg2.N) ⊢ Pipeline.ΦA spec2 c := Idealize.SL.BI.Entails.refl _

end Cert.KernelIdeal.R2

end
-- ==== Proof.KI.Regs.lean ====
import proofs.«419407_j15839839387757_3_alg».proof.Proof.KI.R0.Body
import proofs.«419407_j15839839387757_3_alg».proof.Proof.KI.R1.Body
import proofs.«419407_j15839839387757_3_alg».proof.Proof.KI.R2.Body
import proofs.«419407_j15839839387757_3_alg».proof.Proof.Gen.KernelIdeal.Regions
import Idealize.ShloMosaic.Lib.Pipeline.RegionsLoop

noncomputable section

namespace Cert.KernelIdeal.Regs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W1 (c : Dev nD) : Valuation τ sig (Elt F) := V1 m c
def o0 (c : Dev nD) : Buf (Elt F) ((c : Thread nD τ).loc main_v8) := (R0.dat (fun c b => W1 m c b) c).arrAt 6 cfg0.N
abbrev W2 (c : Dev nD) : Valuation τ sig (Elt F) := Function.update (W1 m c) main_v8 (o0 m c)
abbrev W3 (c : Dev nD) : Valuation τ sig (Elt F) := StableHlo.after hostOps1 (W2 m c)
def o1 (c : Dev nD) : Buf (Elt F) ((c : Thread nD τ).loc main_v18) := (R1.dat (fun c b => W3 m c b) c).arrAt 6 cfg1.N
abbrev W4 (c : Dev nD) : Valuation τ sig (Elt F) := Function.update (W3 m c) main_v18 (o1 m c)
abbrev W5 (c : Dev nD) : Valuation τ sig (Elt F) := StableHlo.after hostOps2 (W4 m c)
def o2 (c : Dev nD) : Buf (Elt F) ((c : Thread nD τ).loc main_v28) := (R2.dat (fun c b => W5 m c b) c).arrAt 6 cfg2.N
abbrev W6 (c : Dev nD) : Valuation τ sig (Elt F) := Function.update (W5 m c) main_v28 (o2 m c)
abbrev W7 (c : Dev nD) : Valuation τ sig (Elt F) := StableHlo.after hostOps3 (W6 m c)

def outs : Outs (F := F) := fun _ r c =>
  if h : r = main_v8 then h ▸ o0 m c
  else if h : r = main_v18 then h ▸ o1 m c
  else if h : r = main_v28 then h ▸ o2 m c
  else m ((c : Thread nD τ).loc r)

theorem outs_v8 (J : ℕ) (c : Dev nD) : outs m J main_v8 c = o0 m c := by
  unfold outs; rw [dif_pos rfl]
theorem outs_v18 (J : ℕ) (c : Dev nD) : outs m J main_v18 c = o1 m c := by
  unfold outs; rw [dif_neg (by decide), dif_pos rfl]
theorem outs_v28 (J : ℕ) (c : Dev nD) : outs m J main_v28 c = o2 m c := by
  unfold outs; rw [dif_neg (by decide), dif_neg (by decide), dif_pos rfl]

theorem V2_eq (c : Dev nD) : V2 m (outs m) c = W2 m c := by
  show Function.update (V1 m c) main_v8 (outs m 2 main_v8 c) = _; rw [outs_v8]
theorem V3_eq (c : Dev nD) : V3 m (outs m) c = W3 m c := by
  show StableHlo.after hostOps1 (V2 m (outs m) c) = _; rw [V2_eq]
theorem V4_eq (c : Dev nD) : V4 m (outs m) c = W4 m c := by
  show Function.update (V3 m (outs m) c) main_v18 (outs m 4 main_v18 c) = _; rw [outs_v18, V3_eq]
theorem V5_eq (c : Dev nD) : V5 m (outs m) c = W5 m c := by
  show StableHlo.after hostOps2 (V4 m (outs m) c) = _; rw [V4_eq]
theorem V6_eq (c : Dev nD) : V6 m (outs m) c = W6 m c := by
  show Function.update (V5 m (outs m) c) main_v28 (outs m 6 main_v28 c) = _; rw [outs_v28, V5_eq]
theorem V7_eq (c : Dev nD) : V7 m (outs m) c = W7 m c := by
  show StableHlo.after hostOps3 (V6 m (outs m) c) = _; rw [V6_eq]

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

-- The state between two items: the buffers at contents `W`, beside what every item hands on unchanged.
abbrev T (c : Dev nD) (W : Valuation τ sig (Elt F)) : sProp 𝕄 :=
  iprop(StableHlo.held (c : Thread nD τ) (Pipeline.ucRefs τ sig) W ∗ R c)

-- A region writing the single window `o` and owing nothing takes the contents `V` to `V` updated at `o`'s array.
def reg (pd : (p : Fin 3) → (c : Dev nD) → Dat τ (Elt F) Unit ℕ (UR sig nD τ) ℕ (Pipeline.pin (pcfgs (F := F)) adm p) c)
    (p : Fin 3) (lf : Pipeline.LaunchFacts (nD := nD) (τ := τ) cfgs p) (V : Dev nD → Valuation τ sig (Elt F))
    (o : Fin (cfgs p).W) (hio : ∀ w, w ≠ o → ((cfgs p).win w).isOut = false)
    (hA : ∀ c w, (pd p c).A w = V c (Pipeline.arrRef (cfgs p).spec w))
    (hq : ∀ c w, (pd p c).q w = fullShare) (howed : ∀ c t, (pd p c).owed t = 0)
    (hrec : ∀ c x, x ∈ (pd p c).recorded 0)
    (hbody : ∀ c, Pipeline.BodyObligation (pd p c) (defs₀ (F := F)) Variants.none () Set.univ)
    (hin : ∀ c, Pipeline.ΦA (cfgs p).spec c ⊢ (pd p c).Φ 0)
    (hout : ∀ c, (pd p c).Φ (Fin.last (cfgs p).N) ⊢ Pipeline.ΦA (cfgs p).spec c) :
    Pipeline.RegionSeg (pcfgs (F := F)) adm pd () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := T c (V c)
  post c := T c (Function.update (V c) (Pipeline.arrRef (cfgs p).spec o) ((pd p c).arrAt o (cfgs p).N))
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm pd lf.win lf.arr_whole c
      ((pd p c).share_full (hq c)) (fun b => V c b) (hA c)
    rw [Pipeline.unscopedBufs_held] at hsplit
    unfold Pipeline.Dat.owesAt Pipeline.owesWithin Pipeline.prefHeld
    rw [howed c, show (Finset.univ : Finset (Fin 0)) = ∅ from rfl, BI.bigSep_empty]
    iintro ⟨⟨Hub, Hp, %W, HO⟩, -, -⟩
    icases hsplit $$ Hub with ⟨Ha, Hrest⟩
    imodintro
    iframe Ha Hp Hrest
    isplitr; · iempintro
    iexists W; isplitr; · ipureintro; exact fun x _ => Or.inl (hrec c x)
    iexact HO
  hin c := by
    refine .trans ?_ (hin c)
    unfold Pipeline.ΦA
    iintro ⟨Hp, -, Hr⟩; iframe
  hout c := by
    rw [Pipeline.ownSems0_none]
    refine (hout c).trans ?_
    unfold Pipeline.ΦA
    iintro ⟨Hr, Hp⟩; iframe; iempintro
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c)) (fun b => V c b)
      (fun b => Function.update (V c) (Pipeline.arrRef (cfgs p).spec o) ((pd p c).arrAt o (cfgs p).N) b)
      ((pd p c).arrAt · (cfgs p).N)
      (fun w => by
        rcases eq_or_ne w o with rfl | h
        · exact (Function.update_self (Proc.devRef (τ := τ) .tc (Pipeline.arrRef (cfgs p).spec w)) ((pd p c).arrAt w (cfgs p).N) (V c)).symm
        · exact ((pd p c).arrAt_in w (hio w h) _).trans ((hA c w).trans
            (Function.update_of_ne (StableHlo.devRef_ne_of_ne (lf.win.arr_inj.ne h)) _ _).symm))
      (fun b hb => Function.update_of_ne
        (StableHlo.devRef_ne_of_ne fun h => hb (Finset.mem_image.2 ⟨o, Finset.mem_univ _, h.symm⟩)) _ _)
    rw [Pipeline.unscopedBufs_held] at hjoin
    unfold Pipeline.Dat.owesAt Pipeline.owesWithin
    rw [howed c]
    iintro ⟨Ha, ⟨%W, -, HO⟩, HY, Hrest⟩
    imodintro
    isplitl [Ha Hrest]
    · iapply hjoin; iframe
    isplitl [HY]; · iexact HY
    iexists W; iexact HO

def pdats : (p : Fin 3) → (c : Dev nD) → Dat τ (Elt F) Unit ℕ (UR sig nD τ) ℕ (Pipeline.pin (pcfgs (F := F)) adm p) c
  | ⟨0, _⟩ => fun c => R0.dat (fun c b => W1 m c b) c
  | ⟨1, _⟩ => fun c => R1.dat (fun c b => W3 m c b) c
  | ⟨2, _⟩ => fun c => R2.dat (fun c b => W5 m c b) c

def reg0 := reg (pdats m) 0 launch0 (W1 m) (6 : Fin 7) (by decide) (R0.A_eq fun c b => W1 m c b) (fun _ _ => rfl) (fun _ _ => rfl)
  (fun _ _ => trivial) (R0.body_obligation fun c b => W1 m c b) (R0.hin fun c b => W1 m c b) (R0.hout fun c b => W1 m c b)
def reg1 := reg (pdats m) 1 launch1 (W3 m) (6 : Fin 7) (by decide) (R1.A_eq fun c b => W3 m c b) (fun _ _ => rfl) (fun _ _ => rfl)
  (fun _ _ => trivial) (R1.body_obligation fun c b => W3 m c b) (R1.hin fun c b => W3 m c b) (R1.hout fun c b => W3 m c b)
def reg2 := reg (pdats m) 2 launch2 (W5 m) (6 : Fin 7) (by decide) (R2.A_eq fun c b => W5 m c b) (fun _ _ => rfl) (fun _ _ => rfl)
  (fun _ _ => trivial) (R2.body_obligation fun c b => W5 m c b) (R2.hin fun c b => W5 m c b) (R2.hout fun c b => W5 m c b)

abbrev sgs := segs m (outs m) Variants.none L lv (fun _ c => R c) () (pdats m) (reg0 m) (reg1 m) (reg2 m)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem T_congr (c : Dev nD) {W W' : Valuation τ sig (Elt F)} (h : W = W') : T (F := F) c W ⊢ T c W' := h ▸ .rfl

-- The items composed in order: every buffer of every core ends at the last contents.
theorem run_all : θ_run defs (onTc (τ := τ) (main (F := F))) ⟨m, fun _ => 0, ρ⟩ (fun r => ∀ c : Dev nD,
      ∀ b ∈ Pipeline.ucRefs τ sig, r.2.mem (((c : Thread nD τ)).1, b) = V7 m (outs m) c b) := by
  refine Pipeline.θ_run_regions_kit_dev (pcfgs (F := F)) adm (pdats m) () cellOf_inj emb₁ defs₀ Variants.none L lv m ρ main
    (sgs m)
    (fun c Q => (show main (F := F) c = Seg.run (sgs m c) from main_segs _ _ _ _ _ _ _ _ _ _ _ _ _ rfl rfl rfl rfl c) ▸ .rfl)
    (fun c => by simp only [sgs, segs, Seg.pipes_host, Seg.pipes_region, Seg.pipes_nil]; decide)
    (fun _ => 0) (fun _ _ => rfl) (fun _ => BI.emp)
    (initOf (Pipeline.cells cfgs cellOf_inj) (Pipeline.launchToks cfgs cellOf_inj))
    (by rw [BI.bigSep_emp_const]; exact sep_emp.2.trans fupd_intro)
    (T₀ := fun c => T c (V0 m c))
    (Tₙ := fun c => StableHlo.held (c : Thread nD τ) (Pipeline.ucRefs τ sig) (V7 m (outs m) c))
    (hch := fun c => ⟨.rfl, .rfl, T_congr c (V2_eq m c).symm, T_congr c (V3_eq m c), T_congr c (V4_eq m c).symm,
      T_congr c (V5_eq m c), T_congr c (V6_eq m c).symm, sep_mono .rfl sep_elim_right⟩)
    (hinit := (sep_elim_left.trans (bigSep_mono fun c _ => ?_)).trans fupd_intro)
    (QY := fun c s => ∀ b ∈ Pipeline.ucRefs τ sig, s.mem (((c : Thread nD τ)).1, b) = V7 m (outs m) c b)
    (hfin := fun c s' => (pointsTo_read_all _ _ _ s').trans fupd_intro) (hQ := fun _ h => h)
  show (_ : sProp 𝕄) ⊢ _
  unfold T; rw [← Pipeline.unscopedBufs_held (Ix := Unit) (Name := ℕ) (U := UR sig nD τ) (Lvl := ℕ) c (V0 m c)]
  iintro ⟨Hh, -, HO, -, Hp, -⟩
  iframe Hh
  isplitl [Hp]; · iexists _; iexact Hp
  iexists ∅; iexact HO

-- Each named buffer is read off the last contents; no item writes an argument.
theorem run_values : θ_run defs (onTc (τ := τ) (main (F := F))) ⟨m, fun _ => 0, ρ⟩ (fun r => ∀ c : Dev nD,
      r.2.mem ((c.tc : Thread nD τ).loc main_v9) = V7 m (outs m) c main_v9
      ∧ r.2.mem ((c.tc : Thread nD τ).loc main_v19) = V7 m (outs m) c main_v19
      ∧ r.2.mem ((c.tc : Thread nD τ).loc main_v29) = V7 m (outs m) c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => by
    have a := fun b hb => h c (Proc.devRef .tc b) (mem_uc b hb)
    exact ⟨a _ (by decide), a _ (by decide), a _ (by decide),
      (a _ (by decide)).trans (V7_main_arg0 m _ c),
      (a _ (by decide)).trans (V7_main_arg1 m _ c),
      (a _ (by decide)).trans (V7_main_arg2 m _ c),
      (a _ (by decide)).trans (V7_main_arg3 m _ c),
      (a _ (by decide)).trans (V7_main_arg4 m _ c),
      (a _ (by decide)).trans (V7_main_arg5 m _ c),
      (a _ (by decide)).trans (V7_main_arg6 m _ c),
      (a _ (by decide)).trans (V7_main_arg7 m _ c),
      (a _ (by decide)).trans (V7_main_arg8 m _ c),
      (a _ (by decide)).trans (V7_main_arg9 m _ c),
      (a _ (by decide)).trans (V7_main_arg10 m _ c),
      (a _ (by decide)).trans (V7_main_arg11 m _ c),
      (a _ (by decide)).trans (V7_main_arg12 m _ c),
      (a _ (by decide)).trans (V7_main_arg13 m _ c),
      (a _ (by decide)).trans (V7_main_arg14 m _ c),
      (a _ (by decide)).trans (V7_main_arg15 m _ c),
      (a _ (by decide)).trans (V7_main_arg16 m _ c),
      (a _ (by decide)).trans (V7_main_arg17 m _ c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2.2.2) (run_values m ρ)

end Cert.KernelIdeal.Regs

end
-- ==== Proof.KI.G.lean ====
import proofs.«419407_j15839839387757_3_alg».proof.Proof.Gen.KernelIdeal.Skeleton
import Idealize.ShloMosaic.Lib.ValueIdx

noncomputable section

namespace Cert.KernelIdeal.Val

open Cert.KernelIdeal Cert.KernelIdeal.Gen
open Idealize.ShloMosaic Idealize.ShloMosaic.ValueIdx

variable {F : FTy → Type} [FloatOps F]

def tilePos (k : Fin 2) (s : Fin 8192) : Fin 16384 := ⟨k.val * 8192 + s.val, by have := k.isLt; have := s.isLt; omega⟩

def maskTile0 (ms : Vec F S256x16384 .bf16) (k : Fin 2) : Vec F S256x8192 .bf16 :=
  fun y => ms (ix2 (n0 := 256) (n1 := 16384) (y 0) (tilePos k (y 1)))

def featTile0 (x : Vec F S16x256x16384 .f32) (b : Fin 16) (k : Fin 2) : Vec F S1x256x8192 .f32 :=
  fun y => x (ix3 (n0 := 16) (n1 := 256) (n2 := 16384) b (y 1) (tilePos k (y 2)))

def acc0 (x : Vec F S16x256x16384 .f32) (ms : Vec F S256x16384 .bf16) (b : Fin 16) : Vec F S256x256 .f32 :=
  k0_pay2 (maskTile0 ms 1) (featTile0 x b 1) (k0_pay2 (maskTile0 ms 0) (featTile0 x b 0) k0_pay1)

def G0 (x : Vec F S16x256x16384 .f32) (ms : Vec F S256x16384 .bf16) (w1 : Vec F S256x256 .f32) (b1 : Vec F S256x1 .f32)
    (w2 : Vec F S256x256 .f32) (b2 : Vec F S256x1 .f32) : Vec F S16x256x256 .f32 :=
  fun j => k0_pay3 (acc0 x ms (j 0)) w1 b1 w2 b2 (ix3 (n0 := 1) (n1 := 256) (n2 := 256) 0 (j 1) (j 2))

def featRow1 (x : Vec F S16x512x4096 .f32) (b : Fin 16) : Vec F S1x512x4096 .f32 :=
  fun y => x (ix3 (n0 := 16) (n1 := 512) (n2 := 4096) b (y 1) (y 2))

def G1 (x : Vec F S16x512x4096 .f32) (ms : Vec F S256x4096 .bf16) (w1 : Vec F S512x256 .f32) (b1 : Vec F S256x1 .f32)
    (w2 : Vec F S256x256 .f32) (b2 : Vec F S256x1 .f32) : Vec F S16x256x256 .f32 :=
  fun j => k1_pay3 (k1_pay2 ms (featRow1 x (j 0)) k1_pay1) w1 b1 w2 b2 (ix3 (n0 := 1) (n1 := 256) (n2 := 256) 0 (j 1) (j 2))

def featRow2 (x : Vec F S16x1024x1024 .f32) (b : Fin 16) : Vec F S1x1024x1024 .f32 :=
  fun y => x (ix3 (n0 := 16) (n1 := 1024) (n2 := 1024) b (y 1) (y 2))

def G2 (x : Vec F S16x1024x1024 .f32) (ms : Vec F S256x1024 .bf16) (w1 : Vec F S1024x256 .f32) (b1 : Vec F S256x1 .f32)
    (w2 : Vec F S256x256 .f32) (b2 : Vec F S256x1 .f32) : Vec F S16x256x256 .f32 :=
  fun j => k2_pay3 (k2_pay2 ms (featRow2 x (j 0)) k2_pay1) w1 b1 w2 b2 (ix3 (n0 := 1) (n1 := 256) (n2 := 256) 0 (j 1) (j 2))

end Cert.KernelIdeal.Val

end
-- ==== Proof.KI.R0.Final.lean ====
import proofs.«419407_j15839839387757_3_alg».proof.Proof.KI.R0.Body
import proofs.«419407_j15839839387757_3_alg».proof.Proof.KI.G
import Idealize.ShloMosaic.Lib.Pipeline.Value
import Idealize.ShloMosaic.Lib.ValueIdx

noncomputable section

namespace Cert.KernelIdeal.R0

open Cert.KernelIdeal Cert.KernelIdeal.Gen
open Idealize.ShloMosaic Idealize.ShloMosaic.TcCoe Idealize.ShloMosaic.Tactic

variable {F : FTy → Type} [FloatOps F]

open Idealize.ShloMosaic.ValueIdx
open Cert.KernelIdeal.Val

theorem hz2 : (![0, 0] : Fin 2 → Nat) = fun _ => 0 := funext fun a => by fin_cases a <;> rfl
theorem hz3 : (![0, 0, 0] : Fin 3 → Nat) = fun _ => 0 := funext fun a => by fin_cases a <;> rfl

-- The rectangle through which the body loads the one-hot tile of its point: all rows, the 8192 positions from the tile's offset.
abbrev tileRect (i : grid0.Coords) : Rect S256x16384 := Rect.unit (s := S256x16384) (k0_off1 i) S256x8192.size (k0_off1_inb i)

variable (V : (c : Dev nD) → (b : Ref sig .tc) → Buf (Elt F) ((c : Thread nD τ).loc b))

-- An odd point stores the two layers and the normalisation of the accumulator it has just updated.
theorem out_odd_piece (c : Dev nD) (t : Fin cfg0.N) (h : ¬t.val % 2 = 0) :
    rb (ms0_6 t) (runB V c t h).1
      = k0_pay3 (k0_pay2 (View.ld (iblk V c 1 t) (tileRect (grid0.coords t))) (iblk V c 0 t) (prevAcc V c t h)) (iblk V c 2 t) (iblk V c 3 t) (iblk V c 4 t) (iblk V c 5 t) := by
  unfold runB
  generalize prevAcc V c t h = xs0
  have e9 : View.read (Elt F) (View.whole cc0_scratch0) ((Memref.isWhole_whole cc0_scratch0).unread xs0) = xs0 := Memref.IsWhole.read_unread _ xs0
  unfold rb
  rw [View.read_writes_junk_eq_canon]
  unfold kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, e9, View.ld_unit_zero (S := S1x256x8192) hz3, View.ld_unit_zero (S := S256x256) hz2, View.ld_unit_zero (S := S256x1) hz2, View.readCov_unit_zero (S := S256x256) _ hz2]
  rfl

theorem idx_facts : ∀ t : Fin cfg0.N,
    win0_0.index t (0 : Fin 3) = t.val / 2 ∧ win0_0.index t (1 : Fin 3) = 0 ∧ win0_0.index t (2 : Fin 3) = t.val % 2
    ∧ win0_1.index t (0 : Fin 2) = 0 ∧ win0_1.index t (1 : Fin 2) = 0
    ∧ win0_6.index t (0 : Fin 3) = t.val / 2 ∧ win0_6.index t (1 : Fin 3) = 0 ∧ win0_6.index t (2 : Fin 3) = 0
    ∧ k0_off1 (grid0.coords t) (0 : Fin 2) = 0 ∧ k0_off1 (grid0.coords t) (1 : Fin 2) = (t.val % 2) * 8192 :=
  (by decide +kernel : ∀ t : Fin grid0.N, _)

theorem iblk0_eq (c : Dev nD) (t : Fin cfg0.N) (b : Fin 16) (k : Fin 2) (ht : t.val = 2 * b.val + k.val) :
    (iblk V c 0 t : Vec F S1x256x8192 .f32) = featTile0 (V c main_v0) b k := by
  have hi := idx_facts t
  funext y
  unfold iblk featTile0
  rw [View.read_apply]
  show V c main_v0 _ = V c main_v0 _
  congr 1
  funext a
  apply Fin.ext
  have hk := k.isLt
  have hy0 : (y 0).val < 1 := (y 0).isLt
  match a with
  | ⟨0, _⟩ => show win0_0.index t (0 : Fin 3) * 1 + 1 * (y 0).val = b.val; omega
  | ⟨1, _⟩ => show win0_0.index t (1 : Fin 3) * 256 + 1 * (y 1).val = (y 1).val; omega
  | ⟨2, _⟩ => show win0_0.index t (2 : Fin 3) * 8192 + 1 * (y 2).val = k.val * 8192 + (y 2).val; omega

theorem tile_eq (c : Dev nD) (t : Fin cfg0.N) (b : Fin 16) (k : Fin 2) (ht : t.val = 2 * b.val + k.val) :
    (View.ld (iblk V c 1 t : Vec F S256x16384 .bf16) (tileRect (grid0.coords t)) : Vec F S256x8192 .bf16) = maskTile0 (V c main_v5) k := by
  have hi := idx_facts t
  funext y
  unfold iblk maskTile0
  show ((cfg0.win 1).blk t).view.read (Elt F) (V c main_v5) ((tileRect (grid0.coords t)).idx y) = _
  rw [View.read_apply]
  show V c main_v5 _ = V c main_v5 _
  congr 1
  funext a
  apply Fin.ext
  have hk := k.isLt
  match a with
  | ⟨0, _⟩ => show win0_1.index t (0 : Fin 2) * 256 + 1 * (k0_off1 (grid0.coords t) (0 : Fin 2) + 1 * (y 0).val) = (y 0).val; omega
  | ⟨1, _⟩ => show win0_1.index t (1 : Fin 2) * 16384 + 1 * (k0_off1 (grid0.coords t) (1 : Fin 2) + 1 * (y 1).val) = k.val * 8192 + (y 1).val; omega

theorem idxC : ∀ t : Fin cfg0.N, (cfg0.win 2).index t = (fun _ => 0) ∧ (cfg0.win 3).index t = (fun _ => 0)
    ∧ (cfg0.win 4).index t = (fun _ => 0) ∧ (cfg0.win 5).index t = (fun _ => 0) := by decide +kernel

-- The weights' and biases' index maps are zero and their blocks are their arrays' shapes: each block is its whole array.
theorem iblk_whole (c : Dev nD) (t : Fin cfg0.N) : (iblk V c 2 t : Vec F S256x256 .f32) = V c main_arg6 ∧ (iblk V c 3 t : Vec F S256x1 .f32) = V c main_v6
    ∧ (iblk V c 4 t : Vec F S256x256 .f32) = V c main_arg8 ∧ (iblk V c 5 t : Vec F S256x1 .f32) = V c main_v7 := by
  obtain ⟨h2, h3, h4, h5⟩ := idxC t
  refine ⟨?_, ?_, ?_, ?_⟩ <;> funext y <;> unfold iblk <;> rw [View.read_apply] <;> show V c _ _ = V c _ _ <;> congr 1 <;> funext a <;> apply Fin.ext <;>
    show _ * _ + 1 * _ = _ <;> simp only [h2, h3, h4, h5] <;> omega

-- After the even point of batch row `b` the accumulator holds the first tile's step over zero: the update overwrites the reset it read back.
theorem acc_even (c : Dev nD) (t : Fin cfg0.N) (h : t.val % 2 = 0) (b : Fin 16) (ht : t.val = 2 * b.val) :
    rb scM0_0 (runA V c t h).1 = k0_pay2 (maskTile0 (V c main_v5) 0) (featTile0 (V c main_v0) b 0) k0_pay1 := by
  rw [← tile_eq V c t b 0 (by show t.val = 2 * b.val + 0; omega), ← iblk0_eq V c t b 0 (by show t.val = 2 * b.val + 0; omega)]
  unfold rb runA
  rw [View.read_writes_junk_eq_canon]
  unfold kernelRun0_A
  dsimp only
  sl_unfold_words
  rw [View.canon_cons_unit_zero (S := S256x256) hz2, View.readCov_unit_zero (S := S256x256) _ hz2]
  simp only [View.readAt_eq_ld, (hs0_0 t).read_unread, (hs0_1 t).read_unread, View.ld_unit_zero (S := S1x256x8192) hz3, View.ld_unit_zero (S := S256x256) hz2, View.ld_unit_zero (S := S256x1) hz2]
  rfl

-- After the odd point of batch row `b` the output's buffer holds the layers and the normalisation of the row's accumulated matrix.
theorem out_odd (c : Dev nD) (t : Fin cfg0.N) (b : Fin 16) (ht : t.val = 2 * b.val + 1) :
    (outsAt V c t).1 = k0_pay3 (acc0 (V c main_v0) (V c main_v5) b) (V c main_arg6) (V c main_v6) (V c main_arg8) (V c main_v7) := by
  have h : ¬t.val % 2 = 0 := by omega
  rw [outsAt, dif_neg h]
  refine (out_odd_piece V c t h).trans ?_
  rw [tile_eq V c t b 1 (by show t.val = 2 * b.val + 1; omega), iblk0_eq V c t b 1 (by show t.val = 2 * b.val + 1; omega),
    (iblk_whole V c t).1, (iblk_whole V c t).2.1, (iblk_whole V c t).2.2.1, (iblk_whole V c t).2.2.2, show prevAcc V c t h = _ from acc_even V c _ _ b (by show t.val - 1 = 2 * b.val; omega)]
  rfl

theorem flushed_eq (c : Dev nD) (t : Fin cfg0.N) (hf : (cfg0.win 6).flush t = true) :
    (dat V c).flushed 6 t = ((cfg0.win 6).blk t).view.read (Elt F) (G0 (V c main_v0) (V c main_v5) (V c main_arg6) (V c main_v6) (V c main_arg8) (V c main_v7)) := by
  have h1 : t.val % 2 = 1 := (flush0_6 t).mp hf
  have hN : t.val < 32 := lt_of_lt_of_eq t.isLt (show cfg0.N = 32 from N_0)
  have hi := idx_facts t
  show (cfg0.win 6).cut (grid0.coords t) (outsAt V c t).1 = _
  rw [out_odd V c t ⟨t.val / 2, by omega⟩ (by show t.val = 2 * (t.val / 2) + 1; omega)]
  funext y
  rw [View.read_apply]
  show k0_pay3 _ _ _ _ _ y = G0 _ _ _ _ _ _ _
  unfold G0
  have hy0 : (y 0).val < 1 := (y 0).isLt
  have eb : (⟨t.val / 2, by omega⟩ : Fin 16) = ((cfg0.win 6).blk t).view.emb y 0 :=
    Fin.ext (show t.val / 2 = win0_6.index t (0 : Fin 3) * 1 + 1 * (y 0).val by omega)
  have ey : y = ix3 (n0 := 1) (n1 := 256) (n2 := 256) 0 (((cfg0.win 6).blk t).view.emb y 1) (((cfg0.win 6).blk t).view.emb y 2) := by
    funext a
    apply Fin.ext
    match a with
    | ⟨0, _⟩ => show (y 0).val = 0; omega
    | ⟨1, _⟩ => show (y 1).val = win0_6.index t (1 : Fin 3) * 256 + 1 * (y 1).val; omega
    | ⟨2, _⟩ => show (y 2).val = win0_6.index t (2 : Fin 3) * 256 + 1 * (y 2).val; omega
  rw [← eb]; exact congrArg _ ey

theorem mem_blk (t : Fin cfg0.N) (i : S16x256x256.Idx) :
    i ∈ ((cfg0.win 6).blk t).view.set ↔ ∀ a : Fin 3, win0_6.index t a * S1x256x256.size a ≤ (i a).val ∧ (i a).val < win0_6.index t a * S1x256x256.size a + S1x256x256.size a := by
  show i ∈ ((View.whole main_v8).slice (win0_6.rect t)).set ↔ _
  rw [View.set_slice_whole, Rect.mem_set_unit]
  exact Iff.rfl

theorem covered (i : S16x256x256.Idx) :
    ∃ t : Fin cfg0.N, (cfg0.win 6).flush t = true ∧ i ∈ ((cfg0.win 6).blk t).view.set := by
  have hi0 : (i 0).val < 16 := (i 0).isLt
  have hi1 : (i 1).val < 256 := (i 1).isLt
  have hi2 : (i 2).val < 256 := (i 2).isLt
  have hN : cfg0.N = 32 := N_0
  obtain ⟨t, ht⟩ : ∃ t : Fin cfg0.N, t.val = 2 * (i 0).val + 1 := ⟨⟨_, by omega⟩, rfl⟩
  have hi := idx_facts t
  refine ⟨t, (flush0_6 t).mpr (by omega), ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 256 ≤ (i 2).val ∧ (i 2).val < win0_6.index t (2 : Fin 3) * 256 + 256; omega

theorem final (c : Dev nD) : (dat V c).arrAt 6 cfg0.N = Cert.KernelIdeal.Val.G0 (V c main_v0) (V c main_v5) (V c main_arg6) (V c main_v6) (V c main_arg8) (V c main_v7) :=
  (dat V c).arrAt_eq_of_cover 6 _ (flushed_eq V c) covered

end Cert.KernelIdeal.R0

end
-- ==== Proof.KI.R1.Final.lean ====
import proofs.«419407_j15839839387757_3_alg».proof.Proof.KI.R1.Body
import proofs.«419407_j15839839387757_3_alg».proof.Proof.KI.G
import Idealize.ShloMosaic.Lib.Pipeline.Value
import Idealize.ShloMosaic.Lib.ValueIdx

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

theorem off1_zero : ∀ i : grid1.Coords, k1_off1 i = fun _ => 0 := by decide +kernel

-- Every load is through a whole buffer at offset zero, so it reads the buffer's contents; the one store is the whole output block.
theorem out_eq (c : Dev nD) (t : Fin cfg1.N) :
    out V c t = k1_pay3 (k1_pay2 (iblk V c 1 t) (iblk V c 0 t) k1_pay1) (iblk V c 2 t) (iblk V c 3 t) (iblk V c 4 t) (iblk V c 5 t) := by
  unfold out
  rw [View.read_writes_eq_canon _ _ _ (cover V c t)]
  unfold runAt kernelRun1_A
  dsimp only
  sl_unfold_run_names
  rw [View.canon_unit_zero hz3]
  simp only [View.readCov_cons_toLoadRect, View.readAt_eq_ld, Memref.IsWhole.read_unread,
    View.ld_unit_zero (S := S1x512x4096) hz3, View.ld_unit_zero (S := S512x256) hz2, View.ld_unit_zero (S := S256x1) hz2, View.ld_unit_zero (S := S256x256) hz2,
    View.ld_unit_zero (S := S256x4096) (off1_zero (grid1.coords t))]

theorem idx : ∀ t : Fin cfg1.N, win1_0.index t (0 : Fin 3) = t.val ∧ win1_0.index t (1 : Fin 3) = 0 ∧ win1_0.index t (2 : Fin 3) = 0
    ∧ win1_6.index t (0 : Fin 3) = t.val ∧ win1_6.index t (1 : Fin 3) = 0 ∧ win1_6.index t (2 : Fin 3) = 0 :=
  (by decide +kernel : ∀ t : Fin grid1.N, _)

-- The parameter windows sit at block index zero: each holds its whole array.
theorem idx0 : ∀ w : Fin cfg1.W, w ≠ 0 → w ≠ 6 → ∀ (t : Fin cfg1.N) a, (cfg1.win w).index t a = 0 := by decide +kernel

theorem row_eq (c : Dev nD) (t : Fin cfg1.N) (b : Fin 16) (hb : b.val = t.val) :
    (iblk V c 0 t : Vec F S1x512x4096 .f32) = Val.featRow1 (V c main_v10) b := by
  obtain ⟨e0, e1, e2, -⟩ := idx t
  funext y
  unfold iblk Val.featRow1
  rw [View.read_apply]
  show V c main_v10 (((cfg1.win 0).blk t).view.emb y) = V c main_v10 (ix3 (n0 := 16) (n1 := 512) (n2 := 4096) b (y 1) (y 2))
  congr 1
  funext a; apply Fin.ext
  match a with
  | ⟨0, _⟩ => show win1_0.index t (0 : Fin 3) * 1 + 1 * (y 0).val = b.val; have hy : (y 0).val = 0 := Nat.lt_one_iff.mp (y 0).isLt; omega
  | ⟨1, _⟩ => show win1_0.index t (1 : Fin 3) * 512 + 1 * (y 1).val = (y 1).val; omega
  | ⟨2, _⟩ => show win1_0.index t (2 : Fin 3) * 4096 + 1 * (y 2).val = (y 2).val; omega

theorem arr1_eq (c : Dev nD) (t : Fin cfg1.N) : (iblk V c 1 t : Vec F S256x4096 .bf16) = (V c main_v15 : S256x4096.Idx → Elt F .bf16) :=
  funext fun y => (View.read_apply _ y).trans (congrArg (V c main_v15) (funext fun a => Fin.ext ((cfg1.win 1).rect_emb_val_of_index_zero t a (idx0 1 (by decide) (by decide) t a) y)))
theorem arr2_eq (c : Dev nD) (t : Fin cfg1.N) : (iblk V c 2 t : Vec F S512x256 .f32) = (V c main_arg10 : S512x256.Idx → Elt F .f32) :=
  funext fun y => (View.read_apply _ y).trans (congrArg (V c main_arg10) (funext fun a => Fin.ext ((cfg1.win 2).rect_emb_val_of_index_zero t a (idx0 2 (by decide) (by decide) t a) y)))
theorem arr3_eq (c : Dev nD) (t : Fin cfg1.N) : (iblk V c 3 t : Vec F S256x1 .f32) = (V c main_v16 : S256x1.Idx → Elt F .f32) :=
  funext fun y => (View.read_apply _ y).trans (congrArg (V c main_v16) (funext fun a => Fin.ext ((cfg1.win 3).rect_emb_val_of_index_zero t a (idx0 3 (by decide) (by decide) t a) y)))
theorem arr4_eq (c : Dev nD) (t : Fin cfg1.N) : (iblk V c 4 t : Vec F S256x256 .f32) = (V c main_arg12 : S256x256.Idx → Elt F .f32) :=
  funext fun y => (View.read_apply _ y).trans (congrArg (V c main_arg12) (funext fun a => Fin.ext ((cfg1.win 4).rect_emb_val_of_index_zero t a (idx0 4 (by decide) (by decide) t a) y)))
theorem arr5_eq (c : Dev nD) (t : Fin cfg1.N) : (iblk V c 5 t : Vec F S256x1 .f32) = (V c main_v17 : S256x1.Idx → Elt F .f32) :=
  funext fun y => (View.read_apply _ y).trans (congrArg (V c main_v17) (funext fun a => Fin.ext ((cfg1.win 5).rect_emb_val_of_index_zero t a (idx0 5 (by decide) (by decide) t a) y)))

theorem G1_blk (x : Vec F S16x512x4096 .f32) (ms : Vec F S256x4096 .bf16) (w1 : Vec F S512x256 .f32) (b1 : Vec F S256x1 .f32)
    (w2 : Vec F S256x256 .f32) (b2 : Vec F S256x1 .f32) (b : Fin 16) (y : S1x256x256.Idx) (j : S16x256x256.Idx)
    (h0 : (j 0).val = b.val) (h1 : (j 1).val = (y 1).val) (h2 : (j 2).val = (y 2).val) :
    Val.G1 x ms w1 b1 w2 b2 j = k1_pay3 (k1_pay2 ms (Val.featRow1 x b) k1_pay1) w1 b1 w2 b2 y := by
  obtain rfl : b = (j 0 : Fin 16) := Fin.ext h0.symm
  obtain rfl : y = ix3 (n0 := 1) (n1 := 256) (n2 := 256) 0 (j 1) (j 2) := by
    funext a
    match a with
    | ⟨0, _⟩ => exact Fin.ext (Nat.lt_one_iff.mp (y 0).isLt)
    | ⟨1, _⟩ => exact Fin.ext h1.symm
    | ⟨2, _⟩ => exact Fin.ext h2.symm
  rfl

-- What point `t` writes back is batch row `t` of the specification.
theorem flushed_eq (c : Dev nD) (t : Fin cfg1.N) :
    (dat V c).flushed 6 t = ((cfg1.win 6).blk t).view.read (Elt F) (Val.G1 (V c main_v10) (V c main_v15) (V c main_arg10) (V c main_v16) (V c main_arg12) (V c main_v17)) := by
  have hb : t.val < 16 := lt_of_lt_of_eq t.isLt N_1
  obtain ⟨-, -, -, e0, e1, e2⟩ := idx t
  show (cfg1.win 6).cut (grid1.coords t) ((dat V c).after 6 t) = _
  rw [(after_eq V c t).2.2.2.2.2.2, out_eq, row_eq V c t ⟨t.val, hb⟩ rfl, arr1_eq, arr2_eq, arr3_eq, arr4_eq, arr5_eq]
  funext y
  have hy : (y 0).val = 0 := Nat.lt_one_iff.mp (y 0).isLt
  have h0 : ((((cfg1.win 6).blk t).view.emb y) 0).val = t.val := by
    show win1_6.index t (0 : Fin 3) * 1 + 1 * (y 0).val = t.val; omega
  have h1 : ((((cfg1.win 6).blk t).view.emb y) 1).val = (y 1).val := by
    show win1_6.index t (1 : Fin 3) * 256 + 1 * (y 1).val = (y 1).val; omega
  have h2 : ((((cfg1.win 6).blk t).view.emb y) 2).val = (y 2).val := by
    show win1_6.index t (2 : Fin 3) * 256 + 1 * (y 2).val = (y 2).val; omega
  exact (G1_blk _ _ _ _ _ _ ⟨t.val, hb⟩ y (((cfg1.win 6).blk t).view.emb y) h0 h1 h2).symm

-- Every index of the output lies in the block of its batch row's point, which writes it back.
theorem covered (i : S16x256x256.Idx) : ∃ t : Fin cfg1.N, (cfg1.win 6).flush t = true ∧ i ∈ ((cfg1.win 6).blk t).view.set := by
  have hlt : (i 0).val < cfg1.N := lt_of_lt_of_eq (i 0).isLt N_1.symm
  obtain ⟨-, -, -, e0, e1, e2⟩ := idx ⟨(i 0).val, hlt⟩
  have h : ((cfg1.win 6).blk ⟨(i 0).val, hlt⟩).view.emb (ix3 (n0 := 1) (n1 := 256) (n2 := 256) 0 (i 1) (i 2)) = i :=
    funext fun a => Fin.ext (match a with
      | ⟨0, _⟩ => by show win1_6.index _ (0 : Fin 3) * 1 + 1 * 0 = (i 0).val; rw [e0]; dsimp only; omega
      | ⟨1, _⟩ => by show win1_6.index _ (1 : Fin 3) * 256 + 1 * (i 1).val = (i 1).val; omega
      | ⟨2, _⟩ => by show win1_6.index _ (2 : Fin 3) * 256 + 1 * (i 2).val = (i 2).val; omega)
  exact ⟨_, flush1_6 _, h ▸ View.emb_mem_set _ _⟩

theorem final (c : Dev nD) : (dat V c).arrAt 6 cfg1.N = Cert.KernelIdeal.Val.G1 (V c main_v10) (V c main_v15) (V c main_arg10) (V c main_v16) (V c main_arg12) (V c main_v17) :=
  (dat V c).arrAt_eq_of_cover 6 _ (fun t _ => flushed_eq V c t) covered

end Cert.KernelIdeal.R1

end
-- ==== Proof.KI.R2.Final.lean ====
import proofs.«419407_j15839839387757_3_alg».proof.Proof.KI.R2.Body
import proofs.«419407_j15839839387757_3_alg».proof.Proof.KI.G
import Idealize.ShloMosaic.Lib.Pipeline.Value
import Idealize.ShloMosaic.Lib.ValueIdx

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

theorem off2_zero : ∀ i : grid2.Coords, k2_off1 i = fun _ => 0 := by decide +kernel

-- Every load is through a whole buffer at offset zero, so it reads the buffer's contents; the one store is the whole output block.
theorem out_eq (c : Dev nD) (t : Fin cfg2.N) :
    out V c t = k2_pay3 (k2_pay2 (iblk V c 1 t) (iblk V c 0 t) k2_pay1) (iblk V c 2 t) (iblk V c 3 t) (iblk V c 4 t) (iblk V c 5 t) := by
  unfold out
  rw [View.read_writes_eq_canon _ _ _ (cover V c t)]
  unfold runAt kernelRun2_A
  dsimp only
  sl_unfold_run_names
  rw [View.canon_unit_zero hz3]
  simp only [View.readCov_cons_toLoadRect, View.readAt_eq_ld, Memref.IsWhole.read_unread,
    View.ld_unit_zero (S := S1x1024x1024) hz3, View.ld_unit_zero (S := S1024x256) hz2, View.ld_unit_zero (S := S256x1) hz2, View.ld_unit_zero (S := S256x256) hz2,
    View.ld_unit_zero (S := S256x1024) (off2_zero (grid2.coords t))]

theorem idx : ∀ t : Fin cfg2.N, win2_0.index t (0 : Fin 3) = t.val ∧ win2_0.index t (1 : Fin 3) = 0 ∧ win2_0.index t (2 : Fin 3) = 0
    ∧ win2_6.index t (0 : Fin 3) = t.val ∧ win2_6.index t (1 : Fin 3) = 0 ∧ win2_6.index t (2 : Fin 3) = 0 :=
  (by decide +kernel : ∀ t : Fin grid2.N, _)

-- The parameter windows sit at block index zero: each holds its whole array.
theorem idx0 : ∀ w : Fin cfg2.W, w ≠ 0 → w ≠ 6 → ∀ (t : Fin cfg2.N) a, (cfg2.win w).index t a = 0 := by decide +kernel

theorem row_eq (c : Dev nD) (t : Fin cfg2.N) (b : Fin 16) (hb : b.val = t.val) :
    (iblk V c 0 t : Vec F S1x1024x1024 .f32) = Val.featRow2 (V c main_v20) b := by
  obtain ⟨e0, e1, e2, -⟩ := idx t
  funext y
  unfold iblk Val.featRow2
  rw [View.read_apply]
  show V c main_v20 (((cfg2.win 0).blk t).view.emb y) = V c main_v20 (ix3 (n0 := 16) (n1 := 1024) (n2 := 1024) b (y 1) (y 2))
  congr 1
  funext a; apply Fin.ext
  match a with
  | ⟨0, _⟩ => show win2_0.index t (0 : Fin 3) * 1 + 1 * (y 0).val = b.val; have hy : (y 0).val = 0 := Nat.lt_one_iff.mp (y 0).isLt; omega
  | ⟨1, _⟩ => show win2_0.index t (1 : Fin 3) * 1024 + 1 * (y 1).val = (y 1).val; omega
  | ⟨2, _⟩ => show win2_0.index t (2 : Fin 3) * 1024 + 1 * (y 2).val = (y 2).val; omega

theorem arr1_eq (c : Dev nD) (t : Fin cfg2.N) : (iblk V c 1 t : Vec F S256x1024 .bf16) = (V c main_v25 : S256x1024.Idx → Elt F .bf16) :=
  funext fun y => (View.read_apply _ y).trans (congrArg (V c main_v25) (funext fun a => Fin.ext ((cfg2.win 1).rect_emb_val_of_index_zero t a (idx0 1 (by decide) (by decide) t a) y)))
theorem arr2_eq (c : Dev nD) (t : Fin cfg2.N) : (iblk V c 2 t : Vec F S1024x256 .f32) = (V c main_arg14 : S1024x256.Idx → Elt F .f32) :=
  funext fun y => (View.read_apply _ y).trans (congrArg (V c main_arg14) (funext fun a => Fin.ext ((cfg2.win 2).rect_emb_val_of_index_zero t a (idx0 2 (by decide) (by decide) t a) y)))
theorem arr3_eq (c : Dev nD) (t : Fin cfg2.N) : (iblk V c 3 t : Vec F S256x1 .f32) = (V c main_v26 : S256x1.Idx → Elt F .f32) :=
  funext fun y => (View.read_apply _ y).trans (congrArg (V c main_v26) (funext fun a => Fin.ext ((cfg2.win 3).rect_emb_val_of_index_zero t a (idx0 3 (by decide) (by decide) t a) y)))
theorem arr4_eq (c : Dev nD) (t : Fin cfg2.N) : (iblk V c 4 t : Vec F S256x256 .f32) = (V c main_arg16 : S256x256.Idx → Elt F .f32) :=
  funext fun y => (View.read_apply _ y).trans (congrArg (V c main_arg16) (funext fun a => Fin.ext ((cfg2.win 4).rect_emb_val_of_index_zero t a (idx0 4 (by decide) (by decide) t a) y)))
theorem arr5_eq (c : Dev nD) (t : Fin cfg2.N) : (iblk V c 5 t : Vec F S256x1 .f32) = (V c main_v27 : S256x1.Idx → Elt F .f32) :=
  funext fun y => (View.read_apply _ y).trans (congrArg (V c main_v27) (funext fun a => Fin.ext ((cfg2.win 5).rect_emb_val_of_index_zero t a (idx0 5 (by decide) (by decide) t a) y)))

theorem G2_blk (x : Vec F S16x1024x1024 .f32) (ms : Vec F S256x1024 .bf16) (w1 : Vec F S1024x256 .f32) (b1 : Vec F S256x1 .f32)
    (w2 : Vec F S256x256 .f32) (b2 : Vec F S256x1 .f32) (b : Fin 16) (y : S1x256x256.Idx) (j : S16x256x256.Idx)
    (h0 : (j 0).val = b.val) (h1 : (j 1).val = (y 1).val) (h2 : (j 2).val = (y 2).val) :
    Val.G2 x ms w1 b1 w2 b2 j = k2_pay3 (k2_pay2 ms (Val.featRow2 x b) k2_pay1) w1 b1 w2 b2 y := by
  obtain rfl : b = (j 0 : Fin 16) := Fin.ext h0.symm
  obtain rfl : y = ix3 (n0 := 1) (n1 := 256) (n2 := 256) 0 (j 1) (j 2) := by
    funext a
    match a with
    | ⟨0, _⟩ => exact Fin.ext (Nat.lt_one_iff.mp (y 0).isLt)
    | ⟨1, _⟩ => exact Fin.ext h1.symm
    | ⟨2, _⟩ => exact Fin.ext h2.symm
  rfl

-- What point `t` writes back is batch row `t` of the specification.
theorem flushed_eq (c : Dev nD) (t : Fin cfg2.N) :
    (dat V c).flushed 6 t = ((cfg2.win 6).blk t).view.read (Elt F) (Val.G2 (V c main_v20) (V c main_v25) (V c main_arg14) (V c main_v26) (V c main_arg16) (V c main_v27)) := by
  have hb : t.val < 16 := lt_of_lt_of_eq t.isLt N_2
  obtain ⟨-, -, -, e0, e1, e2⟩ := idx t
  show (cfg2.win 6).cut (grid2.coords t) ((dat V c).after 6 t) = _
  rw [(after_eq V c t).2.2.2.2.2.2, out_eq, row_eq V c t ⟨t.val, hb⟩ rfl, arr1_eq, arr2_eq, arr3_eq, arr4_eq, arr5_eq]
  funext y
  have hy : (y 0).val = 0 := Nat.lt_one_iff.mp (y 0).isLt
  have h0 : ((((cfg2.win 6).blk t).view.emb y) 0).val = t.val := by
    show win2_6.index t (0 : Fin 3) * 1 + 1 * (y 0).val = t.val; omega
  have h1 : ((((cfg2.win 6).blk t).view.emb y) 1).val = (y 1).val := by
    show win2_6.index t (1 : Fin 3) * 256 + 1 * (y 1).val = (y 1).val; omega
  have h2 : ((((cfg2.win 6).blk t).view.emb y) 2).val = (y 2).val := by
    show win2_6.index t (2 : Fin 3) * 256 + 1 * (y 2).val = (y 2).val; omega
  exact (G2_blk _ _ _ _ _ _ ⟨t.val, hb⟩ y (((cfg2.win 6).blk t).view.emb y) h0 h1 h2).symm

-- Every index of the output lies in the block of its batch row's point, which writes it back.
theorem covered (i : S16x256x256.Idx) : ∃ t : Fin cfg2.N, (cfg2.win 6).flush t = true ∧ i ∈ ((cfg2.win 6).blk t).view.set := by
  have hlt : (i 0).val < cfg2.N := lt_of_lt_of_eq (i 0).isLt N_2.symm
  obtain ⟨-, -, -, e0, e1, e2⟩ := idx ⟨(i 0).val, hlt⟩
  have h : ((cfg2.win 6).blk ⟨(i 0).val, hlt⟩).view.emb (ix3 (n0 := 1) (n1 := 256) (n2 := 256) 0 (i 1) (i 2)) = i :=
    funext fun a => Fin.ext (match a with
      | ⟨0, _⟩ => by show win2_6.index _ (0 : Fin 3) * 1 + 1 * 0 = (i 0).val; rw [e0]; dsimp only; omega
      | ⟨1, _⟩ => by show win2_6.index _ (1 : Fin 3) * 256 + 1 * (i 1).val = (i 1).val; omega
      | ⟨2, _⟩ => by show win2_6.index _ (2 : Fin 3) * 256 + 1 * (i 2).val = (i 2).val; omega)
  exact ⟨_, flush2_6 _, h ▸ View.emb_mem_set _ _⟩

theorem final (c : Dev nD) : (dat V c).arrAt 6 cfg2.N = Cert.KernelIdeal.Val.G2 (V c main_v20) (V c main_v25) (V c main_arg14) (V c main_v26) (V c main_arg16) (V c main_v27) :=
  (dat V c).arrAt_eq_of_cover 6 _ (fun t _ => flushed_eq V c t) covered

end Cert.KernelIdeal.R2

end
-- ==== Proof.Spec.lean ====
import Idealize.ShloMosaic.PureOps.Ideal
import Mathlib.Algebra.BigOperators.Group.Finset.Basic

noncomputable section

namespace Cert.Spec

open Idealize.ShloMosaic

def hid {C : ℕ} (x : Fin C → EReal) (w1 : Fin C → Fin 256 → EReal) (b1 : Fin 256 → EReal) (k : Fin 256) : EReal :=
  max ((∑ c : Fin C, x c * w1 c k) + b1 k) 0

def lin {C : ℕ} (x : Fin C → EReal) (w1 : Fin C → Fin 256 → EReal) (b1 : Fin 256 → EReal)
    (w2 : Fin 256 → Fin 256 → EReal) (b2 : Fin 256 → EReal) (o : Fin 256) : EReal :=
  (∑ k : Fin 256, hid x w1 b1 k * w2 k o) + b2 o

def eps : EReal := Ideal.ofBits .f32 0x33D6BF95#32

def proj {C : ℕ} (x : Fin C → EReal) (w1 : Fin C → Fin 256 → EReal) (b1 : Fin 256 → EReal)
    (w2 : Fin 256 → Fin 256 → EReal) (b2 : Fin 256 → EReal) (o : Fin 256) : EReal :=
  Ideal.div (lin x w1 b1 w2 b2 o) (Ideal.sqrt (∑ o' : Fin 256, lin x w1 b1 w2 b2 o' * lin x w1 b1 w2 b2 o') + eps)

def posOf (HW : ℕ) (pid : BitVec 32) (h : 0 ≤ pid.toInt ∧ pid.toInt < (HW : ℤ)) : Fin HW :=
  ⟨pid.toInt.toNat, by omega⟩

def rowOf (H W : ℕ) (q : Fin (H * W)) : Fin H :=
  ⟨q.val / W, Nat.div_lt_of_lt_mul (lt_of_lt_of_eq q.isLt (Nat.mul_comm H W))⟩

def colOf (H W : ℕ) (q : Fin (H * W)) : Fin W :=
  ⟨q.val % W, Nat.mod_lt _ (Nat.pos_of_ne_zero fun e => by subst e; exact Nat.not_lt_zero _ q.isLt)⟩

-- On the extended reals a * 0 = 0 and a * 1 = a for every a, infinite ones included.
theorem sum_mul_indicator {n : ℕ} (f : Fin n → EReal) (q : Fin n) :
    (∑ j : Fin n, f j * (if j = q then (1 : EReal) else 0)) = f q := by
  simp only [mul_ite, mul_one, mul_zero, Finset.sum_ite_eq', Finset.mem_univ, if_true]

end Cert.Spec

end
-- ==== Proof.Val.Common.lean ====
import proofs.«419407_j15839839387757_3_alg».proof.Proof.Gen.KernelIdeal.Skeleton
import proofs.«419407_j15839839387757_3_alg».proof.Proof.Spec
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.ValueIdx

variable {K M N : ℕ} {φ₁ φ₂ : FTy}

/-- Contracting the first axis of both operands: entry `(k, p)` is the sum over `c` of `l (c, k) * r (c, p)`. -/
theorem matmul_first_apply (D : DotDims ⟨2, ![K, M]⟩ ⟨2, ![K, N]⟩ ⟨2, ![M, N]⟩) (hD : ∃ wf, D = ⟨[0], [0], [1], [1], [], [], wf⟩)
    (l : FVec Ideal ⟨2, ![K, M]⟩ φ₁) (r : FVec Ideal ⟨2, ![K, N]⟩ φ₂) (k : Fin M) (p : Fin N) :
    matmul D none l r (constant (F := Ideal) ⟨2, ![M, N]⟩ .f32 0x00000000#32) (ix2 k p) = ∑ c : Fin K, l (ix2 c k) * r (ix2 c p) := by
  obtain ⟨wf, rfl⟩ := hD
  simp only [matmul]
  rw [Ideal.matmul_constant_zero_apply, ← Equiv.sum_comp (contrEquiv1 _ K rfl rfl).symm]
  refine Finset.sum_congr rfl fun c _ => congrArg₂ (· * ·) (congrArg l (funext fun a => Fin.ext ?_)) (congrArg r (funext fun a => Fin.ext ?_)) <;>
    match a with
    | ⟨0, _⟩ => rfl
    | ⟨1, _⟩ => rfl

/-- Contracting the last axis of both operands: entry `(c, p)` is the sum over `j` of `l (c, j) * r (p, j)`. -/
theorem matmul_last_apply (D : DotDims ⟨2, ![M, K]⟩ ⟨2, ![N, K]⟩ ⟨2, ![M, N]⟩) (hD : ∃ wf, D = ⟨[1], [1], [0], [0], [], [], wf⟩)
    (l : FVec Ideal ⟨2, ![M, K]⟩ φ₁) (r : FVec Ideal ⟨2, ![N, K]⟩ φ₂) (c : Fin M) (p : Fin N) :
    matmul D none l r (constant (F := Ideal) ⟨2, ![M, N]⟩ .f32 0x00000000#32) (ix2 c p) = ∑ j : Fin K, l (ix2 c j) * r (ix2 p j) := by
  obtain ⟨wf, rfl⟩ := hD
  simp only [matmul]
  rw [Ideal.matmul_constant_zero_apply, ← Equiv.sum_comp (contrEquiv1 _ K rfl rfl).symm]
  refine Finset.sum_congr rfl fun j _ => congrArg₂ (· * ·) (congrArg l (funext fun a => Fin.ext ?_)) (congrArg r (funext fun a => Fin.ext ?_)) <;>
    match a with
    | ⟨0, _⟩ => rfl
    | ⟨1, _⟩ => rfl

/-- A column broadcast along the rows: at `(k, p)` the column's entry of row `k`. -/
theorem broadcastTo_col_apply {α : Type} (v : S256x1.Idx → α) (h : S256x1.Broadcasts S256x256) (k p : Fin 256) :
    broadcastTo S256x256 v h (ix2 k p) = v (ix2 k (0 : Fin 1)) := by
  refine broadcastTo_apply v h (ix2 k p) (ix2 k (0 : Fin 1)) fun ax => ?_
  match ax with
  | ⟨0, _⟩ => exact (if_neg (show ¬(256 : ℕ) = 1 by decide)).symm
  | ⟨1, _⟩ => rfl

/-- The sum down the rows: entry `p` is the sum over the rows `o` of the entry `(o, p)`. -/
theorem colsum_apply (src : FVec Ideal S256x256 .f32) (h : S256x256.Reduces [0] S256) (hφ : FKind.Formats .f32)
    (hacc : (0x00000000#32 : BitVec 32) = FKind.add.neutral .f32 hφ) (p : Fin 256) :
    multiReduction (F := Ideal) .add [0] S256 src 0x00000000#32 h hφ hacc (ix1 p) = ∑ o : Fin 256, src (ix2 o p) := by
  refine (Ideal.multiReduction_add_single src 0x00000000#32 h hφ hacc (ix1 p)).trans ?_
  refine Finset.sum_congr rfl fun o _ => congrArg src (funext fun a => Fin.ext ?_)
  match a with
  | ⟨0, _⟩ => rfl
  | ⟨1, _⟩ => rfl

variable {F : FTy → Type} [FloatOps F] {C : ℕ}

/-- Each column of `Y` (outputs × patches) divided by its Euclidean length plus the constant, stored patches × outputs. -/
def normed (Y : FVec F S256x256 .f32) : FVec F S1x256x256 .f32 :=
  shapeCast S1x256x256
    (transpose S256x256 [1, 0]
      (divf Y
        (broadcastTo S256x256
          (addf (sqrt (shapeCast S1x256 (multiReduction .add [0] S256 (mulf Y Y) 0x00000000#32 reduces_S256x256_S256 (.inl rfl) rfl) shapeCasts_S256_S1x256))
            (broadcast S1x256 (Scalar.ofBits .f32 0x33D6BF95#32)))
          broadcasts_S1x256_S256x256))
      transposes_S256x256_p1_0_S256x256)
    shapeCasts_S256x256_S1x256x256

theorem normed_apply (Y : FVec Ideal S256x256 .f32) (p o : Fin 256) :
    normed (F := Ideal) Y (ix3 (0 : Fin 1) p o)
      = Ideal.div (Y (ix2 o p)) (Ideal.sqrt (∑ o' : Fin 256, Y (ix2 o' p) * Y (ix2 o' p)) + Cert.Spec.eps) := by
  unfold normed
  refine (shapeCast_ab_1ab_apply _ _ 0 p o).trans ((transpose_ix2_apply _ _ p o).trans ?_)
  refine congrArg (Ideal.div (Y (ix2 o p))) ((broadcastTo_1b_ab_apply _ _ o p).trans ?_)
  refine congrArg (· + Cert.Spec.eps) (congrArg Ideal.sqrt ((shapeCast_a_1a_apply _ _ 0 p).trans ?_))
  exact colsum_apply _ _ _ _ p

/-- An affine layer on `X` (inputs × patches) with weights `w` (inputs × outputs) and bias `b`, outputs × patches. -/
def affine (D : DotDims ⟨2, ![C, 256]⟩ ⟨2, ![C, 256]⟩ S256x256) (w X : Vec F ⟨2, ![C, 256]⟩ .f32) (b : Vec F S256x1 .f32) :
    FVec F S256x256 .f32 :=
  addf (matmul D none (truncf .bf16 w bitsLt_bf16_f32) (truncf .bf16 X bitsLt_bf16_f32) (constant S256x256 .f32 0x00000000#32))
    (broadcastTo S256x256 (shapeCast S256x1 b shapeCasts_S256x1_S256x1) broadcasts_S256x1_S256x256)

theorem affine_apply (D : DotDims ⟨2, ![C, 256]⟩ ⟨2, ![C, 256]⟩ S256x256) (hD : ∃ wf, D = ⟨[0], [0], [1], [1], [], [], wf⟩)
    (w X : Vec Ideal ⟨2, ![C, 256]⟩ .f32) (b : Vec Ideal S256x1 .f32) (k p : Fin 256) :
    affine D w X b (ix2 k p) = (∑ c : Fin C, X (ix2 c p) * w (ix2 c k)) + b (ix2 k (0 : Fin 1)) := by
  unfold affine
  rw [shapeCast_self]
  refine (addf_apply _ _ _).trans (congrArg₂ (· + ·) ((matmul_first_apply D hD _ _ k p).trans ?_) (broadcastTo_col_apply b _ k p))
  exact Finset.sum_congr rfl fun c _ => mul_comm _ _

/-- The last payload over the first layer's product `D`: two affine layers, the rectifier between, then the normalisation. -/
def pay3 (D : DotDims ⟨2, ![C, 256]⟩ ⟨2, ![C, 256]⟩ S256x256) (acc w1 : Vec F ⟨2, ![C, 256]⟩ .f32) (b1 : Vec F S256x1 .f32)
    (w2 : Vec F S256x256 .f32) (b2 : Vec F S256x1 .f32) : FVec F S1x256x256 .f32 :=
  normed (affine dot_S256x256_S256x256_S256x256_0_0_1_1_n_n w2
    (maximumf (affine D w1 acc b1) (broadcast S256x256 (Scalar.ofBits .f32 0x00000000#32))) b2)

/-- At patch `p` and output `o` the last payload is the projection of the patch's accumulated channels. -/
theorem pay3_apply (D : DotDims ⟨2, ![C, 256]⟩ ⟨2, ![C, 256]⟩ S256x256) (hD : ∃ wf, D = ⟨[0], [0], [1], [1], [], [], wf⟩)
    (acc w1 : Vec Ideal ⟨2, ![C, 256]⟩ .f32) (b1 : Vec Ideal S256x1 .f32) (w2 : Vec Ideal S256x256 .f32) (b2 : Vec Ideal S256x1 .f32)
    (p o : Fin 256) :
    pay3 D acc w1 b1 w2 b2 (ix3 (0 : Fin 1) p o)
      = Cert.Spec.proj (fun c => acc (ix2 c p)) (fun c k => w1 (ix2 c k)) (fun k => b1 (ix2 k 0)) (fun k o' => w2 (ix2 k o'))
          (fun o' => b2 (ix2 o' 0)) o := by
  have hl (o : Fin 256) : affine dot_S256x256_S256x256_S256x256_0_0_1_1_n_n w2
        (maximumf (affine D w1 acc b1) (broadcast S256x256 (Scalar.ofBits .f32 0x00000000#32))) b2 (ix2 o p)
      = Cert.Spec.lin (fun c => acc (ix2 c p)) (fun c k => w1 (ix2 c k)) (fun k => b1 (ix2 k 0)) (fun k o' => w2 (ix2 k o'))
          (fun o' => b2 (ix2 o' 0)) o := by
    refine (affine_apply _ ⟨_, rfl⟩ w2 _ b2 o p).trans (congrArg (· + b2 (ix2 o 0)) (Finset.sum_congr rfl fun k _ => congrArg (· * w2 (ix2 k o)) ?_))
    exact (maximumf_apply _ _ _).trans (congrArg₂ max (affine_apply D hD w1 acc b1 k p) Ideal.ofBits_zero_f32)
  unfold pay3 Cert.Spec.proj
  rw [normed_apply]
  simp only [hl]

/-- One accumulation step: the accumulator plus the product of the tile's features (channels × positions) with the table (patches × positions). -/
theorem step_apply (D : DotDims ⟨2, ![C, N]⟩ ⟨2, ![256, N]⟩ ⟨2, ![C, 256]⟩) (hD : ∃ wf, D = ⟨[1], [1], [0], [0], [], [], wf⟩)
    (h : (⟨3, ![1, C, N]⟩ : Shape).ShapeCasts ⟨2, ![C, N]⟩) (ms : FVec Ideal ⟨2, ![256, N]⟩ .bf16) (feat : Vec Ideal ⟨3, ![1, C, N]⟩ .f32)
    (acc : FVec Ideal ⟨2, ![C, 256]⟩ .f32) (c : Fin C) (p : Fin 256) :
    addf (F := Ideal) acc (matmul D none (truncf .bf16 (shapeCast ⟨2, ![C, N]⟩ feat h) bitsLt_bf16_f32) ms (constant ⟨2, ![C, 256]⟩ .f32 0x00000000#32)) (ix2 c p)
      = acc (ix2 c p) + ∑ j : Fin N, feat (ix3 (0 : Fin 1) c j) * ms (ix2 p j) := by
  refine (addf_apply _ _ _).trans (congrArg (acc (ix2 c p) + ·) ((matmul_last_apply D hD _ _ c p).trans ?_))
  exact Finset.sum_congr rfl fun j _ => congrArg (· * ms (ix2 p j)) (shapeCast_1ab_ab_apply feat _ c j)

end Cert.KernelIdeal.Val

end
-- ==== Proof.Val.Pay0.lean ====
import proofs.«419407_j15839839387757_3_alg».proof.Proof.KI.G
import proofs.«419407_j15839839387757_3_alg».proof.Proof.Val.Common

noncomputable section

namespace Cert.KernelIdeal.Val

open Cert.KernelIdeal Cert.KernelIdeal.Gen
open Idealize.ShloMosaic Idealize.ShloMosaic.ValueIdx

variable {F : FTy → Type} [FloatOps F]

theorem sum_two_tiles (f : Fin 16384 → EReal) :
    (∑ s : Fin 8192, f (tilePos 0 s)) + ∑ s : Fin 8192, f (tilePos 1 s) = ∑ j : Fin 16384, f j := by
  refine (congrArg₂ (· + ·) ?_ ?_).trans (Fin.sum_univ_add (a := 8192) (b := 8192) f).symm <;>
    exact Finset.sum_congr rfl fun s _ => congrArg f (Fin.ext (by simp [tilePos, Nat.add_comm]))

theorem k0_pay3_eq : @k0_pay3 F _ = pay3 dot_S256x256_S256x256_S256x256_0_0_1_1_n_n := rfl

theorem G0_apply (x : Vec Ideal S16x256x16384 .f32) (ms : Vec Ideal S256x16384 .bf16) (w1 : Vec Ideal S256x256 .f32) (b1 : Vec Ideal S256x1 .f32) (w2 : Vec Ideal S256x256 .f32) (b2 : Vec Ideal S256x1 .f32) (b : Fin 16) (p o : Fin 256) :
    G0 (F := Ideal) x ms w1 b1 w2 b2 (ix3 b p o)
      = Cert.Spec.proj (fun c : Fin 256 => ∑ j : Fin 16384, x (ix3 b c j) * ms (ix2 p j)) (fun c k => w1 (ix2 c k)) (fun k => b1 (ix2 k 0)) (fun k o' => w2 (ix2 k o')) (fun o' => b2 (ix2 o' 0)) o := by
  show k0_pay3 (F := Ideal) (acc0 x ms b) w1 b1 w2 b2 (ix3 (0 : Fin 1) p o) = _
  rw [k0_pay3_eq]
  refine (pay3_apply _ ⟨_, rfl⟩ _ w1 b1 w2 b2 p o).trans (congrArg (Cert.Spec.proj · _ _ _ _ o) (funext fun c => ?_))
  unfold acc0 k0_pay2 k0_pay1
  simp only [shapeCast_self]
  refine (step_apply _ ⟨_, rfl⟩ _ _ _ _ c p).trans ((congrArg (· + _) ((step_apply _ ⟨_, rfl⟩ _ _ _ _ c p).trans
    ((congrArg (· + _) Ideal.ofBits_zero_f32).trans (zero_add _)))).trans (sum_two_tiles fun j => x (ix3 b c j) * ms (ix2 p j)))

end Cert.KernelIdeal.Val

end
-- ==== Proof.Val.Pay1.lean ====
import proofs.«419407_j15839839387757_3_alg».proof.Proof.KI.G
import proofs.«419407_j15839839387757_3_alg».proof.Proof.Val.Common

noncomputable section

namespace Cert.KernelIdeal.Val

open Cert.KernelIdeal Cert.KernelIdeal.Gen
open Idealize.ShloMosaic Idealize.ShloMosaic.ValueIdx

variable {F : FTy → Type} [FloatOps F]

theorem k1_pay3_eq : @k1_pay3 F _ = pay3 dot_S512x256_S512x256_S256x256_0_0_1_1_n_n := rfl

theorem G1_apply (x : Vec Ideal S16x512x4096 .f32) (ms : Vec Ideal S256x4096 .bf16) (w1 : Vec Ideal S512x256 .f32) (b1 : Vec Ideal S256x1 .f32) (w2 : Vec Ideal S256x256 .f32) (b2 : Vec Ideal S256x1 .f32) (b : Fin 16) (p o : Fin 256) :
    G1 (F := Ideal) x ms w1 b1 w2 b2 (ix3 b p o)
      = Cert.Spec.proj (fun c : Fin 512 => ∑ j : Fin 4096, x (ix3 b c j) * ms (ix2 p j)) (fun c k => w1 (ix2 c k)) (fun k => b1 (ix2 k 0)) (fun k o' => w2 (ix2 k o')) (fun o' => b2 (ix2 o' 0)) o := by
  show k1_pay3 (F := Ideal) (k1_pay2 ms (featRow1 x b) (k1_pay1 (F := Ideal))) w1 b1 w2 b2 (ix3 (0 : Fin 1) p o) = _
  rw [k1_pay3_eq]
  refine (pay3_apply _ ⟨_, rfl⟩ _ w1 b1 w2 b2 p o).trans (congrArg (Cert.Spec.proj · _ _ _ _ o) (funext fun c => ?_))
  unfold k1_pay2 k1_pay1
  simp only [shapeCast_self]
  exact (step_apply _ ⟨_, rfl⟩ _ ms (featRow1 x b) _ c p).trans ((congrArg (· + _) Ideal.ofBits_zero_f32).trans (zero_add _))

end Cert.KernelIdeal.Val

end
-- ==== Proof.Val.Pay2.lean ====
import proofs.«419407_j15839839387757_3_alg».proof.Proof.KI.G
import proofs.«419407_j15839839387757_3_alg».proof.Proof.Val.Common

noncomputable section

namespace Cert.KernelIdeal.Val

open Cert.KernelIdeal Cert.KernelIdeal.Gen
open Idealize.ShloMosaic Idealize.ShloMosaic.ValueIdx

variable {F : FTy → Type} [FloatOps F]

theorem k2_pay3_eq : @k2_pay3 F _ = pay3 dot_S1024x256_S1024x256_S256x256_0_0_1_1_n_n := rfl

theorem G2_apply (x : Vec Ideal S16x1024x1024 .f32) (ms : Vec Ideal S256x1024 .bf16) (w1 : Vec Ideal S1024x256 .f32) (b1 : Vec Ideal S256x1 .f32) (w2 : Vec Ideal S256x256 .f32) (b2 : Vec Ideal S256x1 .f32) (b : Fin 16) (p o : Fin 256) :
    G2 (F := Ideal) x ms w1 b1 w2 b2 (ix3 b p o)
      = Cert.Spec.proj (fun c : Fin 1024 => ∑ j : Fin 1024, x (ix3 b c j) * ms (ix2 p j)) (fun c k => w1 (ix2 c k)) (fun k => b1 (ix2 k 0)) (fun k o' => w2 (ix2 k o')) (fun o' => b2 (ix2 o' 0)) o := by
  show k2_pay3 (F := Ideal) (k2_pay2 ms (featRow2 x b) (k2_pay1 (F := Ideal))) w1 b1 w2 b2 (ix3 (0 : Fin 1) p o) = _
  rw [k2_pay3_eq]
  refine (pay3_apply _ ⟨_, rfl⟩ _ w1 b1 w2 b2 p o).trans (congrArg (Cert.Spec.proj · _ _ _ _ o) (funext fun c => ?_))
  unfold k2_pay2 k2_pay1
  simp only [shapeCast_self]
  exact (step_apply _ ⟨_, rfl⟩ _ ms (featRow2 x b) _ c p).trans ((congrArg (· + _) Ideal.ofBits_zero_f32).trans (zero_add _))

end Cert.KernelIdeal.Val

end
-- ==== Proof.Glue.Host.lean ====
import proofs.«419407_j15839839387757_3_alg».proof.Proof.Gen.KernelIdeal.Regions
import proofs.«419407_j15839839387757_3_alg».proof.Proof.Spec
import Idealize.ShloMosaic.Lib.StableHlo.Run
import Idealize.ShloMosaic.Lib.Pipeline.Value
import Idealize.ShloMosaic.Lib.ValueIdx
import Idealize.ShloMosaic.Lib.StableHlo.Predicate

noncomputable section

namespace Cert.KernelIdeal.Glue

open Cert.KernelIdeal Cert.KernelIdeal.Gen Idealize.ShloMosaic Idealize.ShloMosaic.ValueIdx
open Idealize.ShloMosaic.TcCoe Idealize.ShloMosaic.StableHlo

-- A bit read as an unsigned number is one or zero.
theorem uitofp_bit (φ : FTy) (b : BitVec 1) :
    (FloatOps.uitofp (F := Ideal) φ b : EReal) = if b = 1#1 then 1 else 0 := by
  rcases BitVec.eq_zero_or_eq_one b with rfl | rfl <;> (show (((_ : BitVec 1).toNat : ℝ) : EReal) = _; simp)

-- A vector as a column: row k and entry k sit at the same row-major position.
theorem col_apply {α : Type} {n : ℕ} (x : (⟨1, ![n]⟩ : Shape).Idx → α)
    (h : (⟨1, ![n]⟩ : Shape).ShapeCasts ⟨2, ![n, 1]⟩) (k : Fin n) :
    shapeCast ⟨2, ![n, 1]⟩ x h (ix2 k (0 : Fin 1)) = x (ix1 k) := by
  refine shapeCast_apply x h _ _ ?_
  rw [Shape.rowMajor_val_one, Shape.rowMajor_val_two]
  show k.val = k.val * 1 + 0
  omega

-- Position j of a map flattened row by row is row j / W, column j % W.
theorem flat_apply {α : Type} (B C H W : ℕ) (x : (⟨4, ![B, C, H, W]⟩ : Shape).Idx → α)
    (h : (⟨4, ![B, C, H, W]⟩ : Shape).ShapeCasts ⟨3, ![B, C, H * W]⟩) (b : Fin B) (ch : Fin C) (j : Fin (H * W)) :
    shapeCast ⟨3, ![B, C, H * W]⟩ x h (ix3 b ch j) = x (ix4 b ch (Cert.Spec.rowOf H W j) (Cert.Spec.colOf H W j)) := by
  refine shapeCast_apply x h _ _ ?_
  rw [Shape.rowMajor_val_four, Shape.rowMajor_val_three]
  show ((b.val * C + ch.val) * H + j.val / W) * W + j.val % W = (b.val * C + ch.val) * (H * W) + j.val
  rw [Nat.add_mul, Nat.add_assoc, Nat.div_add_mod', Nat.mul_assoc]

-- Row b * P + p of a stack of B tables flattened is row p of table b.
theorem rows_apply {α : Type} (B P C : ℕ) (x : (⟨3, ![B, P, C]⟩ : Shape).Idx → α)
    (h : (⟨3, ![B, P, C]⟩ : Shape).ShapeCasts ⟨2, ![B * P, C]⟩) (b : Fin B) (p : Fin P) (o : Fin C)
    (hr : b.val * P + p.val < B * P) :
    shapeCast ⟨2, ![B * P, C]⟩ x h (ix2 ⟨b.val * P + p.val, hr⟩ o) = x (ix3 b p o) := by
  refine shapeCast_apply x h _ _ ?_
  rw [Shape.rowMajor_val_three, Shape.rowMajor_val_two]
  rfl

-- Position numbers compared with an in-range patch word, the bit read as a number: one at the patch's position, zero elsewhere.
theorem onehot_apply {P : ℕ} (q : ℕ) (hq : q ≤ 2 ^ 31) (pid : IVec ⟨1, ![P]⟩ 32)
    (hc : (⟨1, ![P]⟩ : Shape).ShapeCasts ⟨2, ![P, 1]⟩)
    (hb : (⟨2, ![P, 1]⟩ : Shape).BroadcastsInDim ⟨2, ![P, q]⟩ ![0, 1]) (p : Fin P) (j : Fin q)
    (h : 0 ≤ (pid (ix1 p)).toInt ∧ (pid (ix1 p)).toInt < (q : ℤ)) :
    (uitofp (F := Ideal) .bf16 (cmpi .eq (iotaInDim ⟨2, ![P, q]⟩ 32 1)
        (broadcastInDim ⟨2, ![P, q]⟩ ![0, 1] hb (shapeCast ⟨2, ![P, 1]⟩ pid hc))) : (⟨2, ![P, q]⟩ : Shape).Idx → EReal) (ix2 p j)
      = if j = Cert.Spec.posOf q (pid (ix1 p)) h then (1 : EReal) else 0 := by
  have e : broadcastInDim ⟨2, ![P, q]⟩ ![0, 1] hb (shapeCast ⟨2, ![P, 1]⟩ pid hc) (ix2 p j) = pid (ix1 p) :=
    (Predicate.bcast_of_col hb _ p j).trans (col_apply pid hc p)
  show (FloatOps.uitofp (F := Ideal) .bf16 (IntOp.cmpi .eq (BitVec.ofNat 32 j.val)
      (broadcastInDim ⟨2, ![P, q]⟩ ![0, 1] hb (shapeCast ⟨2, ![P, 1]⟩ pid hc) (ix2 p j))) : EReal) = _
  have hj := j.isLt; have h0 := h.1
  rw [e, uitofp_bit]
  refine if_congr ?_ rfl rfl
  rw [Predicate.cmpi_eq_iff, ← BitVec.toInt_inj, Predicate.toInt_ofNat_small _ (by omega), Fin.ext_iff]
  show (j.val : ℤ) = (pid (ix1 p)).toInt ↔ j.val = (pid (ix1 p)).toInt.toNat
  omega

section
variable {F : FTy → Type} [FloatOps F] (m : (ℓ : Loc nD τ sig) → Buf (Elt F) ℓ) (outs : Outs (F := F)) (c : Dev nD) (r : Ref sig .tc)

-- No host line and no region writes an argument, so every valuation holds it as launched.
theorem arg1 (h : r ∉ hostOps0_W) : V1 m c r = m ((c : Thread nD τ).loc r) := V1_of m c r h
theorem arg2 (h : r ∉ ([main_v8] : List (Ref sig .tc)) ∧ r ∉ hostOps0_W) : V2 m outs c r = m ((c : Thread nD τ).loc r) :=
  (V2_of m outs c r h.1).trans (arg1 m c r h.2)
theorem arg3 (h : r ∉ hostOps1_W ∧ r ∉ ([main_v8] : List (Ref sig .tc)) ∧ r ∉ hostOps0_W) : V3 m outs c r = m ((c : Thread nD τ).loc r) :=
  (V3_of m outs c r h.1).trans (arg2 m outs c r h.2)
theorem arg4 (h : r ∉ ([main_v18] : List (Ref sig .tc)) ∧ r ∉ hostOps1_W ∧ r ∉ ([main_v8] : List (Ref sig .tc)) ∧ r ∉ hostOps0_W) :
    V4 m outs c r = m ((c : Thread nD τ).loc r) := (V4_of m outs c r h.1).trans (arg3 m outs c r h.2)
theorem arg5 (h : r ∉ hostOps2_W ∧ r ∉ ([main_v18] : List (Ref sig .tc)) ∧ r ∉ hostOps1_W ∧ r ∉ ([main_v8] : List (Ref sig .tc)) ∧ r ∉ hostOps0_W) :
    V5 m outs c r = m ((c : Thread nD τ).loc r) := (V5_of m outs c r h.1).trans (arg4 m outs c r h.2)
end

section
variable {F : FTy → Type} [FloatOps F] (m : (ℓ : Loc nD τ sig) → Buf (Elt F) ℓ) (outs : Outs (F := F))

theorem feat0_apply (c : Dev nD) (b : Fin 16) (ch : Fin 256) (j : Fin 16384) :
    (V1 m c main_v0 : S16x256x16384.Idx → _) (ix3 b ch j)
      = (m ((c : Thread nD τ).loc main_arg0) : S16x256x128x128.Idx → _)
          (ix4 b ch (Cert.Spec.rowOf 128 128 j) (Cert.Spec.colOf 128 128 j)) := by
  dsimp only [V1, hostOps0]; after_results; exact flat_apply 16 256 128 128 _ _ b ch j

theorem b1col0_apply (c : Dev nD) (k : Fin 256) :
    (V1 m c main_v6 : S256x1.Idx → _) (ix2 k (0 : Fin 1))
      = (m ((c : Thread nD τ).loc main_arg7) : S256.Idx → _) (ix1 k) := by
  dsimp only [V1, hostOps0]; after_results; exact col_apply _ _ k

theorem b2col0_apply (c : Dev nD) (k : Fin 256) :
    (V1 m c main_v7 : S256x1.Idx → _) (ix2 k (0 : Fin 1))
      = (m ((c : Thread nD τ).loc main_arg9) : S256.Idx → _) (ix1 k) := by
  dsimp only [V1, hostOps0]; after_results; exact col_apply _ _ k

theorem w1_0 (c : Dev nD) : V1 m c main_arg6 = m ((c : Thread nD τ).loc main_arg6) := arg1 m c main_arg6 (by decide)

theorem w2_0 (c : Dev nD) : V1 m c main_arg8 = m ((c : Thread nD τ).loc main_arg8) := arg1 m c main_arg8 (by decide)

theorem feat1_apply (c : Dev nD) (b : Fin 16) (ch : Fin 512) (j : Fin 4096) :
    (V3 m outs c main_v10 : S16x512x4096.Idx → _) (ix3 b ch j)
      = (m ((c : Thread nD τ).loc main_arg1) : S16x512x64x64.Idx → _)
          (ix4 b ch (Cert.Spec.rowOf 64 64 j) (Cert.Spec.colOf 64 64 j)) := by
  dsimp only [V3, hostOps1]; after_results; rw [arg2 m outs c main_arg1 (by decide)]; exact flat_apply 16 512 64 64 _ _ b ch j

theorem b1col1_apply (c : Dev nD) (k : Fin 256) :
    (V3 m outs c main_v16 : S256x1.Idx → _) (ix2 k (0 : Fin 1))
      = (m ((c : Thread nD τ).loc main_arg11) : S256.Idx → _) (ix1 k) := by
  dsimp only [V3, hostOps1]; after_results; rw [arg2 m outs c main_arg11 (by decide)]; exact col_apply _ _ k

theorem b2col1_apply (c : Dev nD) (k : Fin 256) :
    (V3 m outs c main_v17 : S256x1.Idx → _) (ix2 k (0 : Fin 1))
      = (m ((c : Thread nD τ).loc main_arg13) : S256.Idx → _) (ix1 k) := by
  dsimp only [V3, hostOps1]; after_results; rw [arg2 m outs c main_arg13 (by decide)]; exact col_apply _ _ k

theorem w1_1 (c : Dev nD) : V3 m outs c main_arg10 = m ((c : Thread nD τ).loc main_arg10) := arg3 m outs c main_arg10 (by decide)

theorem w2_1 (c : Dev nD) : V3 m outs c main_arg12 = m ((c : Thread nD τ).loc main_arg12) := arg3 m outs c main_arg12 (by decide)

theorem feat2_apply (c : Dev nD) (b : Fin 16) (ch : Fin 1024) (j : Fin 1024) :
    (V5 m outs c main_v20 : S16x1024x1024.Idx → _) (ix3 b ch j)
      = (m ((c : Thread nD τ).loc main_arg2) : S16x1024x32x32.Idx → _)
          (ix4 b ch (Cert.Spec.rowOf 32 32 j) (Cert.Spec.colOf 32 32 j)) := by
  dsimp only [V5, hostOps2]; after_results; rw [arg4 m outs c main_arg2 (by decide)]; exact flat_apply 16 1024 32 32 _ _ b ch j

theorem b1col2_apply (c : Dev nD) (k : Fin 256) :
    (V5 m outs c main_v26 : S256x1.Idx → _) (ix2 k (0 : Fin 1))
      = (m ((c : Thread nD τ).loc main_arg15) : S256.Idx → _) (ix1 k) := by
  dsimp only [V5, hostOps2]; after_results; rw [arg4 m outs c main_arg15 (by decide)]; exact col_apply _ _ k

theorem b2col2_apply (c : Dev nD) (k : Fin 256) :
    (V5 m outs c main_v27 : S256x1.Idx → _) (ix2 k (0 : Fin 1))
      = (m ((c : Thread nD τ).loc main_arg17) : S256.Idx → _) (ix1 k) := by
  dsimp only [V5, hostOps2]; after_results; rw [arg4 m outs c main_arg17 (by decide)]; exact col_apply _ _ k

theorem w1_2 (c : Dev nD) : V5 m outs c main_arg14 = m ((c : Thread nD τ).loc main_arg14) := arg5 m outs c main_arg14 (by decide)

theorem w2_2 (c : Dev nD) : V5 m outs c main_arg16 = m ((c : Thread nD τ).loc main_arg16) := arg5 m outs c main_arg16 (by decide)

theorem res0_apply (c : Dev nD) (b : Fin 16) (p o : Fin 256) :
    (V7 m outs c main_v9 : S4096x256.Idx → _) (ix2 (n0 := 4096) (n1 := 256) ⟨b.val * 256 + p.val, by omega⟩ o)
      = (outs 2 main_v8 c : S16x256x256.Idx → _) (ix3 b p o) := by
  rw [V7_of m outs c main_v9 (by decide), V6_of m outs c main_v9 (by decide), V5_of m outs c main_v9 (by decide), V4_of m outs c main_v9 (by decide)]
  dsimp only [V3, hostOps1]; after_results; simp only [V2, Function.update_self]
  exact rows_apply 16 256 256 _ _ b p o _

theorem res1_apply (c : Dev nD) (b : Fin 16) (p o : Fin 256) :
    (V7 m outs c main_v19 : S4096x256.Idx → _) (ix2 (n0 := 4096) (n1 := 256) ⟨b.val * 256 + p.val, by omega⟩ o)
      = (outs 4 main_v18 c : S16x256x256.Idx → _) (ix3 b p o) := by
  rw [V7_of m outs c main_v19 (by decide), V6_of m outs c main_v19 (by decide)]
  dsimp only [V5, hostOps2]; after_results; simp only [V4, Function.update_self]
  exact rows_apply 16 256 256 _ _ b p o _

theorem res2_apply (c : Dev nD) (b : Fin 16) (p o : Fin 256) :
    (V7 m outs c main_v29 : S4096x256.Idx → _) (ix2 (n0 := 4096) (n1 := 256) ⟨b.val * 256 + p.val, by omega⟩ o)
      = (outs 6 main_v28 c : S16x256x256.Idx → _) (ix3 b p o) := by
  dsimp only [V7, hostOps3]; after_results; simp only [V6, Function.update_self]
  exact rows_apply 16 256 256 _ _ b p o _

end

theorem mask0_apply (m : (ℓ : Loc nD τ sig) → Buf (Elt Ideal) ℓ) (c : Dev nD) (p : Fin 256) (j : Fin 16384)
    (hq : 0 ≤ ((m ((c : Thread nD τ).loc main_arg3) : S256.Idx → BitVec 32) (ix1 p)).toInt
        ∧ ((m ((c : Thread nD τ).loc main_arg3) : S256.Idx → BitVec 32) (ix1 p)).toInt < (16384 : ℤ)) :
    (V1 (F := Ideal) m c main_v5 : S256x16384.Idx → EReal) (ix2 p j)
      = if j = Cert.Spec.posOf 16384 ((m ((c : Thread nD τ).loc main_arg3) : S256.Idx → BitVec 32) (ix1 p)) hq
          then (1 : EReal) else 0 := by
  dsimp only [V1, hostOps0]; after_results; exact onehot_apply 16384 (by norm_num) _ _ _ p j hq

theorem mask1_apply (m : (ℓ : Loc nD τ sig) → Buf (Elt Ideal) ℓ) (outs : Outs (F := Ideal)) (c : Dev nD) (p : Fin 256) (j : Fin 4096)
    (hq : 0 ≤ ((m ((c : Thread nD τ).loc main_arg4) : S256.Idx → BitVec 32) (ix1 p)).toInt
        ∧ ((m ((c : Thread nD τ).loc main_arg4) : S256.Idx → BitVec 32) (ix1 p)).toInt < (4096 : ℤ)) :
    (V3 (F := Ideal) m outs c main_v15 : S256x4096.Idx → EReal) (ix2 p j)
      = if j = Cert.Spec.posOf 4096 ((m ((c : Thread nD τ).loc main_arg4) : S256.Idx → BitVec 32) (ix1 p)) hq
          then (1 : EReal) else 0 := by
  dsimp only [V3, hostOps1]; after_results; rw [arg2 m outs c main_arg4 (by decide)]; exact onehot_apply 4096 (by norm_num) _ _ _ p j hq

theorem mask2_apply (m : (ℓ : Loc nD τ sig) → Buf (Elt Ideal) ℓ) (outs : Outs (F := Ideal)) (c : Dev nD) (p : Fin 256) (j : Fin 1024)
    (hq : 0 ≤ ((m ((c : Thread nD τ).loc main_arg5) : S256.Idx → BitVec 32) (ix1 p)).toInt
        ∧ ((m ((c : Thread nD τ).loc main_arg5) : S256.Idx → BitVec 32) (ix1 p)).toInt < (1024 : ℤ)) :
    (V5 (F := Ideal) m outs c main_v25 : S256x1024.Idx → EReal) (ix2 p j)
      = if j = Cert.Spec.posOf 1024 ((m ((c : Thread nD τ).loc main_arg5) : S256.Idx → BitVec 32) (ix1 p)) hq
          then (1 : EReal) else 0 := by
  dsimp only [V5, hostOps2]; after_results; rw [arg4 m outs c main_arg5 (by decide)]; exact onehot_apply 1024 (by norm_num) _ _ _ p j hq

end Cert.KernelIdeal.Glue

end
-- ==== Proof.Pre.Decode.lean ====
import proofs.«419407_j15839839387757_3_alg».proof.Pre_finite_inputs
import proofs.«419407_j15839839387757_3_alg».proof.Defs
import Idealize.ShloMosaic.Lib.ReduceAll
import Idealize.ShloMosaic.Lib.ValueIdx

noncomputable section

namespace Cert.PreDecode

open Idealize.ShloMosaic Idealize.ShloMosaic.ValueIdx Idealize.SL.Sem
open Cert.Pre_finite_inputs
open Cert.KernelIdeal (nD τ sig main_arg3 main_arg4 main_arg5)

instance : Subsingleton S_.Idx := ⟨fun a b => funext fun d => d.elim0⟩

variable [hP : Cert.Pre_finite_inputs.Facts]

-- An and-reduction that is 1 gives every reduced bit, and a signed comparison of words is the order of their integers.
theorem word_range (x : IVec S256 32) (N : BitVec 32) (i0 i1 : IVec S_ 1)
    (hb : S_.BroadcastsInDim S256 (![] : Fin 0 → Fin S256.rank)) (hr : S256.ReducesTo [0] S_) (h0 : 0 < S_.numel)
    (hge : Host.reduce IntOp.andi (cmpi .sge x (broadcastInDim S256 ![] hb (constantI S_ 32 0#32))) i0 hr h0 ix0 = 1#1)
    (hlt : Host.reduce IntOp.andi (cmpi .slt x (broadcastInDim S256 ![] hb (constantI S_ 32 N))) i1 hr h0 ix0 = 1#1)
    (p : Fin 256) : 0 ≤ (x (ix1 p)).toInt ∧ (x (ix1 p)).toInt < N.toInt :=
  ⟨IntOp.cmpi_sge.1 (Host.reduce_andi_all _ _ hr h0 ix0 hge (ix1 p)),
    IntOp.cmpi_slt.1 (Host.reduce_andi_all _ _ hr h0 ix0 hlt (ix1 p))⟩

abbrev InRange (x : IVec S256 32) (N : ℤ) : Prop := ∀ p : Fin 256, 0 ≤ (x (ix1 p)).toInt ∧ (x (ix1 p)).toInt < N

variable (m : (ℓ : Loc nD τ sig) → Buf (Elt Ideal) ℓ) (h : Cert.Pre_KernelIdeal m) (c : Dev nD)

-- The predicate is a conjunction nested to the left, so its last six conjuncts, the index ranges, are the outermost.
include h in
theorem ranges : InRange (m ((c.tc : Thread nD τ).loc main_arg3)) 16384
    ∧ InRange (m ((c.tc : Thread nD τ).loc main_arg4)) 4096 ∧ InRange (m ((c.tc : Thread nD τ).loc main_arg5)) 1024 := by
  have e0 := congrFun (h c) ix0
  dsimp only [fn, fn_part1, fn_part2, fn_part3, fn_part4, fn_part5] at e0
  obtain ⟨e1, h96⟩ := IntOp.andi_eq_one.1 e0
  obtain ⟨e2, h92⟩ := IntOp.andi_eq_one.1 e1
  obtain ⟨e3, h88⟩ := IntOp.andi_eq_one.1 e2
  obtain ⟨e4, h84⟩ := IntOp.andi_eq_one.1 e3
  obtain ⟨e5, h80⟩ := IntOp.andi_eq_one.1 e4
  obtain ⟨-, h76⟩ := IntOp.andi_eq_one.1 e5
  exact ⟨word_range _ 16384#32 _ _ _ _ _ h76 h80, word_range _ 4096#32 _ _ _ _ _ h84 h88,
    word_range _ 1024#32 _ _ _ _ _ h92 h96⟩

include h in
theorem pid0_range (p : Fin 256) :
    0 ≤ ((m ((c.tc : Thread nD τ).loc main_arg3)) (ix1 p)).toInt ∧ ((m ((c.tc : Thread nD τ).loc main_arg3)) (ix1 p)).toInt < (16384 : ℤ) :=
  (ranges m h c).1 p

include h in
theorem pid1_range (p : Fin 256) :
    0 ≤ ((m ((c.tc : Thread nD τ).loc main_arg4)) (ix1 p)).toInt ∧ ((m ((c.tc : Thread nD τ).loc main_arg4)) (ix1 p)).toInt < (4096 : ℤ) :=
  (ranges m h c).2.1 p

include h in
theorem pid2_range (p : Fin 256) :
    0 ≤ ((m ((c.tc : Thread nD τ).loc main_arg5)) (ix1 p)).toInt ∧ ((m ((c.tc : Thread nD τ).loc main_arg5)) (ix1 p)).toInt < (1024 : ℤ) :=
  (ranges m h c).2.2 p

end Cert.PreDecode

end
-- ==== Proof.KV.lean ====
import proofs.«419407_j15839839387757_3_alg».proof.Proof.KI.Regs
import proofs.«419407_j15839839387757_3_alg».proof.Proof.KI.R0.Final
import proofs.«419407_j15839839387757_3_alg».proof.Proof.KI.R1.Final
import proofs.«419407_j15839839387757_3_alg».proof.Proof.KI.R2.Final
import proofs.«419407_j15839839387757_3_alg».proof.Proof.Val.Pay0
import proofs.«419407_j15839839387757_3_alg».proof.Proof.Val.Pay1
import proofs.«419407_j15839839387757_3_alg».proof.Proof.Val.Pay2
import proofs.«419407_j15839839387757_3_alg».proof.Proof.Glue.Host
import proofs.«419407_j15839839387757_3_alg».proof.Proof.Pre.Decode
import proofs.«419407_j15839839387757_3_alg».proof.Proof.Spec

noncomputable section

namespace Cert.KernelIdeal.KV

open Cert.KernelIdeal Cert.KernelIdeal.Gen
open Idealize.ShloMosaic Idealize.ShloMosaic.TcCoe Idealize.ShloMosaic.ValueIdx Idealize.SL.Sem

variable [hP : Cert.Pre_finite_inputs.Facts]

-- Row b·256+p of a result is the specification at the column patch p samples: the table's row p is the indicator of one position.
theorem kv0 (m : (ℓ : Loc nD τ sig) → Buf (Elt Ideal) ℓ) (hpre : Cert.Pre_KernelIdeal m) (c : Dev nD) (b : Fin 16) (p o : Fin 256) :
    V7 m (Regs.outs m) c main_v9 (ix2 (n0 := 4096) (n1 := 256) ⟨b.val * 256 + p.val, by omega⟩ o)
      = Cert.Spec.proj
          (fun ch : Fin 256 => m ((c : Thread nD τ).loc main_arg0) (ix4 b ch (Cert.Spec.rowOf 128 128 (Cert.Spec.posOf 16384 (m ((c : Thread nD τ).loc main_arg3) (ix1 p)) (Cert.PreDecode.pid0_range m hpre c p))) (Cert.Spec.colOf 128 128 (Cert.Spec.posOf 16384 (m ((c : Thread nD τ).loc main_arg3) (ix1 p)) (Cert.PreDecode.pid0_range m hpre c p)))))
          (fun ch k => m ((c : Thread nD τ).loc main_arg6) (ix2 ch k)) (fun k => m ((c : Thread nD τ).loc main_arg7) (ix1 k))
          (fun k o' => m ((c : Thread nD τ).loc main_arg8) (ix2 k o')) (fun o' => m ((c : Thread nD τ).loc main_arg9) (ix1 o')) o := by
  rw [Glue.res0_apply, Regs.outs_v8]
  unfold Regs.o0
  rw [R0.final, Val.G0_apply]
  simp only [Glue.feat0_apply m c b, fun j => Glue.mask0_apply m c p j (Cert.PreDecode.pid0_range m hpre c p), Glue.w1_0 m c,
    Glue.w2_0 m c, Glue.b1col0_apply m c, Glue.b2col0_apply m c, Cert.Spec.sum_mul_indicator]

theorem kv1 (m : (ℓ : Loc nD τ sig) → Buf (Elt Ideal) ℓ) (hpre : Cert.Pre_KernelIdeal m) (c : Dev nD) (b : Fin 16) (p o : Fin 256) :
    V7 m (Regs.outs m) c main_v19 (ix2 (n0 := 4096) (n1 := 256) ⟨b.val * 256 + p.val, by omega⟩ o)
      = Cert.Spec.proj
          (fun ch : Fin 512 => m ((c : Thread nD τ).loc main_arg1) (ix4 b ch (Cert.Spec.rowOf 64 64 (Cert.Spec.posOf 4096 (m ((c : Thread nD τ).loc main_arg4) (ix1 p)) (Cert.PreDecode.pid1_range m hpre c p))) (Cert.Spec.colOf 64 64 (Cert.Spec.posOf 4096 (m ((c : Thread nD τ).loc main_arg4) (ix1 p)) (Cert.PreDecode.pid1_range m hpre c p)))))
          (fun ch k => m ((c : Thread nD τ).loc main_arg10) (ix2 ch k)) (fun k => m ((c : Thread nD τ).loc main_arg11) (ix1 k))
          (fun k o' => m ((c : Thread nD τ).loc main_arg12) (ix2 k o')) (fun o' => m ((c : Thread nD τ).loc main_arg13) (ix1 o')) o := by
  have e := Regs.V3_eq m c
  rw [Glue.res1_apply, Regs.outs_v18]
  unfold Regs.o1
  rw [R1.final, Val.G1_apply]
  simp only [e ▸ Glue.feat1_apply m (Regs.outs m) c b, e ▸ fun j => Glue.mask1_apply m (Regs.outs m) c p j (Cert.PreDecode.pid1_range m hpre c p), e ▸ Glue.w1_1 m (Regs.outs m) c,
    e ▸ Glue.w2_1 m (Regs.outs m) c, e ▸ Glue.b1col1_apply m (Regs.outs m) c, e ▸ Glue.b2col1_apply m (Regs.outs m) c, Cert.Spec.sum_mul_indicator]

theorem kv2 (m : (ℓ : Loc nD τ sig) → Buf (Elt Ideal) ℓ) (hpre : Cert.Pre_KernelIdeal m) (c : Dev nD) (b : Fin 16) (p o : Fin 256) :
    V7 m (Regs.outs m) c main_v29 (ix2 (n0 := 4096) (n1 := 256) ⟨b.val * 256 + p.val, by omega⟩ o)
      = Cert.Spec.proj
          (fun ch : Fin 1024 => m ((c : Thread nD τ).loc main_arg2) (ix4 b ch (Cert.Spec.rowOf 32 32 (Cert.Spec.posOf 1024 (m ((c : Thread nD τ).loc main_arg5) (ix1 p)) (Cert.PreDecode.pid2_range m hpre c p))) (Cert.Spec.colOf 32 32 (Cert.Spec.posOf 1024 (m ((c : Thread nD τ).loc main_arg5) (ix1 p)) (Cert.PreDecode.pid2_range m hpre c p)))))
          (fun ch k => m ((c : Thread nD τ).loc main_arg14) (ix2 ch k)) (fun k => m ((c : Thread nD τ).loc main_arg15) (ix1 k))
          (fun k o' => m ((c : Thread nD τ).loc main_arg16) (ix2 k o')) (fun o' => m ((c : Thread nD τ).loc main_arg17) (ix1 o')) o := by
  have e := Regs.V5_eq m c
  rw [Glue.res2_apply, Regs.outs_v28]
  unfold Regs.o2
  rw [R2.final, Val.G2_apply]
  simp only [e ▸ Glue.feat2_apply m (Regs.outs m) c b, e ▸ fun j => Glue.mask2_apply m (Regs.outs m) c p j (Cert.PreDecode.pid2_range m hpre c p), e ▸ Glue.w1_2 m (Regs.outs m) c,
    e ▸ Glue.w2_2 m (Regs.outs m) c, e ▸ Glue.b1col2_apply m (Regs.outs m) c, e ▸ Glue.b2col2_apply m (Regs.outs m) c, Cert.Spec.sum_mul_indicator]

end Cert.KernelIdeal.KV

end
-- ==== Proof.Ref.Imports.lean ====
import proofs.«419407_j15839839387757_3_alg».proof.Proof.Gen.ReferenceIdeal.Run
import proofs.«419407_j15839839387757_3_alg».proof.Proof.Gen.ReferenceIdeal.Read
-- ==== Proof.Ref.RefG.lean ====
import proofs.«419407_j15839839387757_3_alg».proof.Proof.Ref.Imports
import proofs.«419407_j15839839387757_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

section Rows
variable {α : Type}

abbrev rowsDims (B N C P : Nat)
    (wf : GatherDims.WF ⟨3, ![B, N, C]⟩ ⟨2, ![P, 1]⟩ ⟨3, ![B, P, C]⟩ [0, 2] [1] [] [1] [] 1 ![B, 1, C]) :
    GatherDims ⟨3, ![B, N, C]⟩ ⟨2, ![P, 1]⟩ ⟨3, ![B, P, C]⟩ where
  offsetDims := [0, 2]
  collapsedSliceDims := [1]
  operandBatchingDims := []
  startIndicesBatchingDims := []
  startIndexMap := [1]
  indexVectorDim := 1
  sliceSizes := ![B, 1, C]
  wf := wf

variable {B N C P w : Nat}
  (wf : GatherDims.WF ⟨3, ![B, N, C]⟩ ⟨2, ![P, 1]⟩ ⟨3, ![B, P, C]⟩ [0, 2] [1] [] [1] [] 1 ![B, 1, C])

-- On an offset axis (the table's or the entry's) the operand index is the result's own coordinate.
theorem rows_off (idx : IVec ⟨2, ![P, 1]⟩ w) (i : (⟨3, ![B, P, C]⟩ : Shape).Idx) (a : Fin 3) (k : ℕ) (hk' : k < 2)
    (ha : a ∉ ([1] : List (Fin 3)))
    (hk : List.idxOf a ((List.finRange 3).filter fun a : Fin 3 => decide (a ∉ ([1] : List (Fin 3)))) = k) :
    ((rowsDims B N C P wf).operandIdx i idx a).val = (i (([0, 2] : List (Fin 3))[k]'hk')).val := by
  show (rowsDims B N C P wf).start i idx a + (rowsDims B N C P wf).batchCoord i a + (rowsDims B N C P wf).offCoord i a = _
  rw [GatherDims.batchCoord_eq_zero _ _ _ List.not_mem_nil]
  unfold GatherDims.start GatherDims.offCoord
  rw [dif_neg (show ¬ a ∈ (rowsDims B N C P wf).startIndexMap from ha),
    dif_pos (show a ∈ (rowsDims B N C P wf).sKept from ((rowsDims B N C P wf).mem_sKept a).2 ⟨ha, List.not_mem_nil⟩)]
  subst hk
  simp only [Nat.zero_add]
  rfl

theorem rows_axis1 (idx : IVec ⟨2, ![P, 1]⟩ w) (b : Fin B) (p : Fin P) (c : Fin C) :
    ((rowsDims B N C P wf).operandIdx (ix3 b p c) idx 1).val = min (idx (ix2 p (0 : Fin 1))).toInt.toNat (N - 1) := by
  show (rowsDims B N C P wf).start (ix3 b p c) idx 1 + (rowsDims B N C P wf).batchCoord (ix3 b p c) 1
    + (rowsDims B N C P wf).offCoord (ix3 b p c) 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin (⟨3, ![B, N, C]⟩ : Shape).rank) ∈ (rowsDims B N C P wf).startIndexMap from List.mem_singleton.mpr rfl)]
  have hsi : (rowsDims B N C P wf).siIdx (ix3 b p c) ⟨List.idxOf (1 : Fin (⟨3, ![B, N, C]⟩ : Shape).rank) (rowsDims B N C P wf).startIndexMap,
      List.idxOf_lt_length_iff.2 (List.mem_singleton.mpr rfl)⟩ = ix2 p (0 : Fin 1) := eq_ix2 _
  rw [hsi]
  rfl

theorem gather_rows_apply (hN : 0 < N) (x : (⟨3, ![B, N, C]⟩ : Shape).Idx → α) (idx : IVec ⟨2, ![P, 1]⟩ w)
    (b : Fin B) (p : Fin P) (c : Fin C) :
    Host.gather (rowsDims B N C P wf) x idx (ix3 b p c)
      = x (ix3 b ⟨min (idx (ix2 p (0 : Fin 1))).toInt.toNat (N - 1), by omega⟩ c) := by
  unfold Host.gather
  congr 1
  funext a
  refine Fin.ext ?_
  match a with
  | ⟨0, _⟩ => exact rows_off wf idx _ 0 0 (by decide) (by decide) (by decide)
  | ⟨1, _⟩ => exact rows_axis1 wf idx b p c
  | ⟨2, _⟩ => exact rows_off wf idx _ 2 1 (by decide) (by decide) (by decide)

end Rows

-- A word that is not negative compares false with zero, so the select keeps it.
theorem sel_nonneg (w y : BitVec 32) (h0 : 0 ≤ w.toInt) : Scalar.select (IntOp.cmpi .slt w 0#32) y w = w := by
  have hc : IntOp.cmpi .slt w 0#32 = 0#1 := eq_zero_of_ne_one fun e => not_lt.2 h0 (IntOp.cmpi_slt.1 e)
  rw [hc, select_zero]

-- Row b * P + p of a stack of B tables flattened is row p of table b.
theorem rows_apply {α : Type} (B P C : ℕ) (x : (⟨3, ![B, P, C]⟩ : Shape).Idx → α)
    (h : (⟨3, ![B, P, C]⟩ : Shape).ShapeCasts ⟨2, ![B * P, C]⟩) (b : Fin B) (p : Fin P) (o : Fin C)
    (hr : b.val * P + p.val < B * P) :
    shapeCast ⟨2, ![B * P, C]⟩ x h (ix2 ⟨b.val * P + p.val, hr⟩ o) = x (ix3 b p o) := by
  refine shapeCast_apply x h _ _ ?_
  rw [Shape.rowMajor_val_three, Shape.rowMajor_val_two]
  rfl

-- Channels moved last and positions flattened row by row: position q is row q / W, column q % W.
theorem nhwc_apply {α : Type} (B C H W : ℕ) (x : (⟨4, ![B, C, H, W]⟩ : Shape).Idx → α)
    (ht : (⟨4, ![B, C, H, W]⟩ : Shape).Transposes [0, 2, 3, 1] ⟨4, ![B, H, W, C]⟩)
    (hs : (⟨4, ![B, H, W, C]⟩ : Shape).ShapeCasts ⟨3, ![B, H * W, C]⟩) (b : Fin B) (q : Fin (H * W)) (c : Fin C) :
    shapeCast ⟨3, ![B, H * W, C]⟩ (transpose ⟨4, ![B, H, W, C]⟩ [0, 2, 3, 1] x ht) hs (ix3 b q c)
      = x (ix4 b c (Cert.Spec.rowOf H W q) (Cert.Spec.colOf H W q)) := by
  rw [shapeCast_apply _ hs (ix3 b q c) (ix4 b (Cert.Spec.rowOf H W q) (Cert.Spec.colOf H W q) c) ?_]
  · exact transpose_apply _ x ht _ _ fun a => match a with | ⟨0, _⟩ => rfl | ⟨1, _⟩ => rfl | ⟨2, _⟩ => rfl | ⟨3, _⟩ => rfl
  · rw [Shape.rowMajor_val_four, Shape.rowMajor_val_three]
    show ((b.val * H + q.val / W) * W + q.val % W) * C + c.val = (b.val * (H * W) + q.val) * C + c.val
    rw [Nat.add_mul (b.val * H), Nat.add_assoc, Nat.div_add_mod', Nat.mul_assoc]

-- A gather of rows at an in-range index reads that row of the flattened map: the clamp leaves the index alone.
theorem pick_apply {α : Type} (B C H W P : ℕ)
    (wf : GatherDims.WF ⟨3, ![B, H * W, C]⟩ ⟨2, ![P, 1]⟩ ⟨3, ![B, P, C]⟩ [0, 2] [1] [] [1] [] 1 ![B, 1, C])
    (x : (⟨4, ![B, C, H, W]⟩ : Shape).Idx → α)
    (ht : (⟨4, ![B, C, H, W]⟩ : Shape).Transposes [0, 2, 3, 1] ⟨4, ![B, H, W, C]⟩)
    (hs : (⟨4, ![B, H, W, C]⟩ : Shape).ShapeCasts ⟨3, ![B, H * W, C]⟩) (idx : IVec ⟨2, ![P, 1]⟩ 32)
    (b : Fin B) (p : Fin P) (c : Fin C) (w : BitVec 32) (hw : idx (ix2 p (0 : Fin 1)) = w)
    (h : 0 ≤ w.toInt ∧ w.toInt < ((H * W : ℕ) : ℤ)) :
    Host.gather (rowsDims B (H * W) C P wf) (shapeCast ⟨3, ![B, H * W, C]⟩ (transpose ⟨4, ![B, H, W, C]⟩ [0, 2, 3, 1] x ht) hs) idx (ix3 b p c)
      = x (ix4 b c (Cert.Spec.rowOf H W (Cert.Spec.posOf (H * W) w h)) (Cert.Spec.colOf H W (Cert.Spec.posOf (H * W) w h))) := by
  have hN : 0 < H * W := by omega
  have e : (⟨min (idx (ix2 p (0 : Fin 1))).toInt.toNat (H * W - 1), by omega⟩ : Fin (H * W)) = Cert.Spec.posOf (H * W) w h :=
    Fin.ext (by show min _ _ = w.toInt.toNat; rw [hw]; omega)
  rw [gather_rows_apply wf hN, e]
  exact nhwc_apply B C H W x ht hs b _ c

section
variable (feat : Vec Ideal S16x256x128x128 .f32) (pid : IVec S256 32) (w1 : Vec Ideal S256x256 .f32) (b1 : Vec Ideal S256 .f32)
    (w2 : Vec Ideal S256x256 .f32) (b2 : Vec Ideal S256 .f32)
  (hpid : ∀ p : Fin 256, 0 ≤ (pid (ix1 p)).toInt ∧ (pid (ix1 p)).toInt < (16384 : ℤ)) (b : Fin 16) (p o : Fin 256)

theorem row0 (c : Fin 256) (h : b.val * 256 + p.val < 4096) :
    val_main_v9 (F := Ideal) feat pid (ix2 (n0 := 4096) (n1 := 256) ⟨b.val * 256 + p.val, h⟩ c) = feat (ix4 b c (Cert.Spec.rowOf 128 128 (Cert.Spec.posOf 16384 (pid (ix1 p)) (hpid p))) (Cert.Spec.colOf 128 128 (Cert.Spec.posOf 16384 (pid (ix1 p)) (hpid p)))) := by
  unfold val_main_v9 val_main_v8 val_main_v1 val_main_v0
  exact (rows_apply 16 256 256 _ _ b p c h).trans (pick_apply 16 256 128 128 256 gather_S16x16384x256_S256x1_S16x256x256_02_1_n_n_1_1_161256_wf feat _ _ _ b p c _
    (by rw [val_main_v7_apply, show idx_main_v7 (ix2 p (0 : Fin 1)) = ix1 p from eq_ix1 _, val_main_v6_apply, val_main_v3_apply, val_main_v2_apply, val_main_c_apply]; exact sel_nonneg _ _ (hpid p).1) (hpid p))

theorem proj0_row (r : Fin 4096) :
    val_main_v27 (F := Ideal) feat pid w1 b1 w2 b2 (ix2 r o)
      = Cert.Spec.proj (fun c : Fin 256 => val_main_v9 (F := Ideal) feat pid (ix2 r c))
          (fun c k => w1 (ix2 c k)) (fun k => b1 (ix1 k)) (fun k o' => w2 (ix2 k o')) (fun o' => b2 (ix1 o')) o := by
  have e1 : ∀ o' k : Fin 256, lidx_main_v16 (ix2 r o') k = ix2 r k := fun _ _ => eq_ix2 _
  have e2 : ∀ o' k : Fin 256, ridx_main_v16 (ix2 r o') k = ix2 k o' := fun _ _ => eq_ix2 _
  have e3 : ∀ (k : Fin 256) (c : Fin 256), lidx_main_v10 (ix2 r k) c = ix2 r c := fun _ _ => eq_ix2 _
  have e4 : ∀ (k : Fin 256) (c : Fin 256), ridx_main_v10 (ix2 r k) c = ix2 c k := fun _ _ => eq_ix2 _
  have e5 : ∀ k : Fin 256, idx_main_v11 (idx_main_v12 (ix2 r k)) = ix1 k := fun _ => eq_ix1 _
  have e6 : ∀ o' : Fin 256, idx_main_v17 (idx_main_v18 (ix2 r o')) = ix1 o' := fun _ => eq_ix1 _
  have e7 : ∀ k : Fin 256, idx_main_v21 (idx_main_v22 (idx_main_v26 (ix2 r o))) k = ix2 r k := fun _ => eq_ix2 _
  simp only [val_main_v27_apply, val_main_v26_apply, val_main_v25_apply, val_main_v23_apply, val_main_v22_apply, val_main_v21_apply, val_main_v24_apply, val_main_cst_2_apply, val_main_cst_1_apply, e7,
    val_main_v20_apply, val_main_v19_apply, val_main_v16_apply, val_main_v18_apply, val_main_v17_apply, e6, e1, e2, val_main_v15_apply, val_main_v13_apply, val_main_v10_apply, e3, e4,
    val_main_v12_apply, val_main_v11_apply, e5, val_main_v14_apply, val_main_cst_apply, Ideal.hostDivf_def, Ideal.addf_def, Ideal.hostUnary_sqrt_def, Ideal.mulf_def,
    Ideal.maximumf_def, Ideal.ofBits_def, Ideal.ofBits_zero_f32, zero_add]
  rfl

def refOut0 : Vec Ideal S4096x256 .f32:=
  val_main_v27 (F := Ideal) feat pid w1 b1 w2 b2

theorem ref0_apply :
    refOut0 feat pid w1 b1 w2 b2 (ix2 (n0 := 4096) (n1 := 256) ⟨b.val * 256 + p.val, by omega⟩ o)
      = Cert.Spec.proj (fun c : Fin 256 => feat (ix4 b c (Cert.Spec.rowOf 128 128 (Cert.Spec.posOf 16384 (pid (ix1 p)) (hpid p))) (Cert.Spec.colOf 128 128 (Cert.Spec.posOf 16384 (pid (ix1 p)) (hpid p)))))
          (fun c k => w1 (ix2 c k)) (fun k => b1 (ix1 k)) (fun k o' => w2 (ix2 k o')) (fun o' => b2 (ix1 o')) o:=
  (proj0_row feat pid w1 b1 w2 b2 o _).trans (congrArg (fun x => Cert.Spec.proj x _ _ _ _ o)
    (funext fun c => row0 feat pid hpid b p c _))

end

section
variable (feat : Vec Ideal S16x512x64x64 .f32) (pid : IVec S256 32) (w1 : Vec Ideal S512x256 .f32) (b1 : Vec Ideal S256 .f32)
    (w2 : Vec Ideal S256x256 .f32) (b2 : Vec Ideal S256 .f32)
  (hpid : ∀ p : Fin 256, 0 ≤ (pid (ix1 p)).toInt ∧ (pid (ix1 p)).toInt < (4096 : ℤ)) (b : Fin 16) (p o : Fin 256)

theorem row1 (c : Fin 512) (h : b.val * 256 + p.val < 4096) :
    val_main_v37 (F := Ideal) feat pid (ix2 (n0 := 4096) (n1 := 512) ⟨b.val * 256 + p.val, h⟩ c) = feat (ix4 b c (Cert.Spec.rowOf 64 64 (Cert.Spec.posOf 4096 (pid (ix1 p)) (hpid p))) (Cert.Spec.colOf 64 64 (Cert.Spec.posOf 4096 (pid (ix1 p)) (hpid p)))) := by
  unfold val_main_v37 val_main_v36 val_main_v29 val_main_v28
  exact (rows_apply 16 256 512 _ _ b p c h).trans (pick_apply 16 512 64 64 256 gather_S16x4096x512_S256x1_S16x256x512_02_1_n_n_1_1_161512_wf feat _ _ _ b p c _
    (by rw [val_main_v35_apply, show idx_main_v35 (ix2 p (0 : Fin 1)) = ix1 p from eq_ix1 _, val_main_v34_apply, val_main_v31_apply, val_main_v30_apply, val_main_c_3_apply]; exact sel_nonneg _ _ (hpid p).1) (hpid p))

theorem proj1_row (r : Fin 4096) :
    val_main_v55 (F := Ideal) feat pid w1 b1 w2 b2 (ix2 r o)
      = Cert.Spec.proj (fun c : Fin 512 => val_main_v37 (F := Ideal) feat pid (ix2 r c))
          (fun c k => w1 (ix2 c k)) (fun k => b1 (ix1 k)) (fun k o' => w2 (ix2 k o')) (fun o' => b2 (ix1 o')) o := by
  have e1 : ∀ o' k : Fin 256, lidx_main_v44 (ix2 r o') k = ix2 r k := fun _ _ => eq_ix2 _
  have e2 : ∀ o' k : Fin 256, ridx_main_v44 (ix2 r o') k = ix2 k o' := fun _ _ => eq_ix2 _
  have e3 : ∀ (k : Fin 256) (c : Fin 512), lidx_main_v38 (ix2 r k) c = ix2 r c := fun _ _ => eq_ix2 _
  have e4 : ∀ (k : Fin 256) (c : Fin 512), ridx_main_v38 (ix2 r k) c = ix2 c k := fun _ _ => eq_ix2 _
  have e5 : ∀ k : Fin 256, idx_main_v39 (idx_main_v40 (ix2 r k)) = ix1 k := fun _ => eq_ix1 _
  have e6 : ∀ o' : Fin 256, idx_main_v45 (idx_main_v46 (ix2 r o')) = ix1 o' := fun _ => eq_ix1 _
  have e7 : ∀ k : Fin 256, idx_main_v49 (idx_main_v50 (idx_main_v54 (ix2 r o))) k = ix2 r k := fun _ => eq_ix2 _
  simp only [val_main_v55_apply, val_main_v54_apply, val_main_v53_apply, val_main_v51_apply, val_main_v50_apply, val_main_v49_apply, val_main_v52_apply, val_main_cst_7_apply, val_main_cst_6_apply, e7,
    val_main_v48_apply, val_main_v47_apply, val_main_v44_apply, val_main_v46_apply, val_main_v45_apply, e6, e1, e2, val_main_v43_apply, val_main_v41_apply, val_main_v38_apply, e3, e4,
    val_main_v40_apply, val_main_v39_apply, e5, val_main_v42_apply, val_main_cst_5_apply, Ideal.hostDivf_def, Ideal.addf_def, Ideal.hostUnary_sqrt_def, Ideal.mulf_def,
    Ideal.maximumf_def, Ideal.ofBits_def, Ideal.ofBits_zero_f32, zero_add]
  rfl

def refOut1 : Vec Ideal S4096x256 .f32:=
  val_main_v55 (F := Ideal) feat pid w1 b1 w2 b2

theorem ref1_apply :
    refOut1 feat pid w1 b1 w2 b2 (ix2 (n0 := 4096) (n1 := 256) ⟨b.val * 256 + p.val, by omega⟩ o)
      = Cert.Spec.proj (fun c : Fin 512 => feat (ix4 b c (Cert.Spec.rowOf 64 64 (Cert.Spec.posOf 4096 (pid (ix1 p)) (hpid p))) (Cert.Spec.colOf 64 64 (Cert.Spec.posOf 4096 (pid (ix1 p)) (hpid p)))))
          (fun c k => w1 (ix2 c k)) (fun k => b1 (ix1 k)) (fun k o' => w2 (ix2 k o')) (fun o' => b2 (ix1 o')) o:=
  (proj1_row feat pid w1 b1 w2 b2 o _).trans (congrArg (fun x => Cert.Spec.proj x _ _ _ _ o)
    (funext fun c => row1 feat pid hpid b p c _))

end

section
variable (feat : Vec Ideal S16x1024x32x32 .f32) (pid : IVec S256 32) (w1 : Vec Ideal S1024x256 .f32) (b1 : Vec Ideal S256 .f32)
    (w2 : Vec Ideal S256x256 .f32) (b2 : Vec Ideal S256 .f32)
  (hpid : ∀ p : Fin 256, 0 ≤ (pid (ix1 p)).toInt ∧ (pid (ix1 p)).toInt < (1024 : ℤ)) (b : Fin 16) (p o : Fin 256)

theorem row2 (c : Fin 1024) (h : b.val * 256 + p.val < 4096) :
    val_main_v65 (F := Ideal) feat pid (ix2 (n0 := 4096) (n1 := 1024) ⟨b.val * 256 + p.val, h⟩ c) = feat (ix4 b c (Cert.Spec.rowOf 32 32 (Cert.Spec.posOf 1024 (pid (ix1 p)) (hpid p))) (Cert.Spec.colOf 32 32 (Cert.Spec.posOf 1024 (pid (ix1 p)) (hpid p)))) := by
  unfold val_main_v65 val_main_v64 val_main_v57 val_main_v56
  exact (rows_apply 16 256 1024 _ _ b p c h).trans (pick_apply 16 1024 32 32 256 gather_S16x1024x1024_S256x1_S16x256x1024_02_1_n_n_1_1_1611024_wf feat _ _ _ b p c _
    (by rw [val_main_v63_apply, show idx_main_v63 (ix2 p (0 : Fin 1)) = ix1 p from eq_ix1 _, val_main_v62_apply, val_main_v59_apply, val_main_v58_apply, val_main_c_8_apply]; exact sel_nonneg _ _ (hpid p).1) (hpid p))

theorem proj2_row (r : Fin 4096) :
    val_main_v83 (F := Ideal) feat pid w1 b1 w2 b2 (ix2 r o)
      = Cert.Spec.proj (fun c : Fin 1024 => val_main_v65 (F := Ideal) feat pid (ix2 r c))
          (fun c k => w1 (ix2 c k)) (fun k => b1 (ix1 k)) (fun k o' => w2 (ix2 k o')) (fun o' => b2 (ix1 o')) o := by
  have e1 : ∀ o' k : Fin 256, lidx_main_v72 (ix2 r o') k = ix2 r k := fun _ _ => eq_ix2 _
  have e2 : ∀ o' k : Fin 256, ridx_main_v72 (ix2 r o') k = ix2 k o' := fun _ _ => eq_ix2 _
  have e3 : ∀ (k : Fin 256) (c : Fin 1024), lidx_main_v66 (ix2 r k) c = ix2 r c := fun _ _ => eq_ix2 _
  have e4 : ∀ (k : Fin 256) (c : Fin 1024), ridx_main_v66 (ix2 r k) c = ix2 c k := fun _ _ => eq_ix2 _
  have e5 : ∀ k : Fin 256, idx_main_v67 (idx_main_v68 (ix2 r k)) = ix1 k := fun _ => eq_ix1 _
  have e6 : ∀ o' : Fin 256, idx_main_v73 (idx_main_v74 (ix2 r o')) = ix1 o' := fun _ => eq_ix1 _
  have e7 : ∀ k : Fin 256, idx_main_v77 (idx_main_v78 (idx_main_v82 (ix2 r o))) k = ix2 r k := fun _ => eq_ix2 _
  simp only [val_main_v83_apply, val_main_v82_apply, val_main_v81_apply, val_main_v79_apply, val_main_v78_apply, val_main_v77_apply, val_main_v80_apply, val_main_cst_12_apply, val_main_cst_11_apply, e7,
    val_main_v76_apply, val_main_v75_apply, val_main_v72_apply, val_main_v74_apply, val_main_v73_apply, e6, e1, e2, val_main_v71_apply, val_main_v69_apply, val_main_v66_apply, e3, e4,
    val_main_v68_apply, val_main_v67_apply, e5, val_main_v70_apply, val_main_cst_10_apply, Ideal.hostDivf_def, Ideal.addf_def, Ideal.hostUnary_sqrt_def, Ideal.mulf_def,
    Ideal.maximumf_def, Ideal.ofBits_def, Ideal.ofBits_zero_f32, zero_add]
  rfl

def refOut2 : Vec Ideal S4096x256 .f32:=
  val_main_v83 (F := Ideal) feat pid w1 b1 w2 b2

theorem ref2_apply :
    refOut2 feat pid w1 b1 w2 b2 (ix2 (n0 := 4096) (n1 := 256) ⟨b.val * 256 + p.val, by omega⟩ o)
      = Cert.Spec.proj (fun c : Fin 1024 => feat (ix4 b c (Cert.Spec.rowOf 32 32 (Cert.Spec.posOf 1024 (pid (ix1 p)) (hpid p))) (Cert.Spec.colOf 32 32 (Cert.Spec.posOf 1024 (pid (ix1 p)) (hpid p)))))
          (fun c k => w1 (ix2 c k)) (fun k => b1 (ix1 k)) (fun k o' => w2 (ix2 k o')) (fun o' => b2 (ix1 o')) o:=
  (proj2_row feat pid w1 b1 w2 b2 o _).trans (congrArg (fun x => Cert.Spec.proj x _ _ _ _ o)
    (funext fun c => row2 feat pid hpid b p c _))

end

theorem run_ref (m : (ℓ : Loc nD τ sig) → Buf (Elt Ideal) ℓ) (ρ : Dev nD → PrngReg) :
    θ_run Cert.ReferenceIdeal.defs (onTc (τ := Cert.ReferenceIdeal.τ) (Cert.ReferenceIdeal.main (F := Ideal))) ⟨m, fun _ => 0, ρ⟩
      (fun r => ∀ c : Dev nD,
        r.2.mem ((c.tc : Thread nD τ).loc main_v27) = refOut0 (m ((c.tc : Thread nD τ).loc main_arg0)) (m ((c.tc : Thread nD τ).loc main_arg3))
            (m ((c.tc : Thread nD τ).loc main_arg6)) (m ((c.tc : Thread nD τ).loc main_arg7)) (m ((c.tc : Thread nD τ).loc main_arg8))
            (m ((c.tc : Thread nD τ).loc main_arg9))
        ∧ r.2.mem ((c.tc : Thread nD τ).loc main_v55) = refOut1 (m ((c.tc : Thread nD τ).loc main_arg1)) (m ((c.tc : Thread nD τ).loc main_arg4))
            (m ((c.tc : Thread nD τ).loc main_arg10)) (m ((c.tc : Thread nD τ).loc main_arg11)) (m ((c.tc : Thread nD τ).loc main_arg12))
            (m ((c.tc : Thread nD τ).loc main_arg13))
        ∧ r.2.mem ((c.tc : Thread nD τ).loc main_v83) = refOut2 (m ((c.tc : Thread nD τ).loc main_arg2)) (m ((c.tc : Thread nD τ).loc main_arg5))
            (m ((c.tc : Thread nD τ).loc main_arg14)) (m ((c.tc : Thread nD τ).loc main_arg15)) (m ((c.tc : Thread nD τ).loc main_arg16))
            (m ((c.tc : Thread nD τ).loc main_arg17))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)) :=
  (θ_run Cert.ReferenceIdeal.defs _ _).mono
    (fun _ h c => ⟨(h c).1.trans (val_main_v27_eq m c), (h c).2.1.trans (val_main_v55_eq m c),
      (h c).2.2.1.trans (val_main_v83_eq m c), (h c).2.2.2⟩)
    (Cert.ReferenceIdeal.Value.run (F := Ideal) m ρ)

end Cert.ReferenceIdeal.RefValue

end
-- ==== Proof.Bridge.lean ====
import proofs.«419407_j15839839387757_3_alg».proof.Proof.KV
import proofs.«419407_j15839839387757_3_alg».proof.Proof.Ref.RefG

noncomputable section

namespace Cert.Proof.Bridge

open Cert.KernelIdeal Cert.KernelIdeal.Gen
open Idealize.ShloMosaic Idealize.ShloMosaic.TcCoe Idealize.ShloMosaic.ValueIdx Idealize.SL.Sem

-- Every row below 4096 is b·256+p with b < 16 and p < 256, so agreement at all (b, p, o) is equality.
theorem rows_ext {α : Type} {f g : (⟨2, ![4096, 256]⟩ : Shape).Idx → α}
    (h : ∀ (b : Fin 16) (p o : Fin 256), f (ix2 (n0 := 4096) (n1 := 256) ⟨b.val * 256 + p.val, by omega⟩ o)
      = g (ix2 (n0 := 4096) (n1 := 256) ⟨b.val * 256 + p.val, by omega⟩ o)) : f = g := by
  funext i
  obtain ⟨r, o, rfl⟩ : ∃ (r : Fin 4096) (o : Fin 256), i = ix2 r o := ⟨i 0, i 1, eq_ix2 i⟩
  obtain ⟨b, p, rfl⟩ : ∃ (b : Fin 16) (p : Fin 256), r = ⟨b.val * 256 + p.val, by omega⟩ :=
    ⟨⟨r.val / 256, by have := r.isLt; omega⟩, ⟨r.val % 256, Nat.mod_lt _ (by norm_num)⟩, Fin.ext (Nat.div_add_mod' r.val 256).symm⟩
  exact h b p o

variable [hP : Cert.Pre_finite_inputs.Facts]

-- At row b·256+p the reference's array and the kernel program's buffer are the same specification term.
theorem bridge0 (m : (ℓ : Loc nD τ sig) → Buf (Elt Ideal) ℓ) (hpre : Cert.Pre_KernelIdeal m) (c : Dev nD) :
    Cert.ReferenceIdeal.RefValue.refOut0 (m ((c.tc : Thread nD τ).loc main_arg0)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9))
      = V7 m (Regs.outs m) c main_v9 :=
  rows_ext fun b p o =>
    (Cert.ReferenceIdeal.RefValue.ref0_apply _ _ _ _ _ _ (fun p => Cert.PreDecode.pid0_range m hpre c p) b p o).trans (KV.kv0 m hpre c b p o).symm

theorem bridge1 (m : (ℓ : Loc nD τ sig) → Buf (Elt Ideal) ℓ) (hpre : Cert.Pre_KernelIdeal m) (c : Dev nD) :
    Cert.ReferenceIdeal.RefValue.refOut1 (m ((c.tc : Thread nD τ).loc main_arg1)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13))
      = V7 m (Regs.outs m) c main_v19 :=
  rows_ext fun b p o =>
    (Cert.ReferenceIdeal.RefValue.ref1_apply _ _ _ _ _ _ (fun p => Cert.PreDecode.pid1_range m hpre c p) b p o).trans (KV.kv1 m hpre c b p o).symm

theorem bridge2 (m : (ℓ : Loc nD τ sig) → Buf (Elt Ideal) ℓ) (hpre : Cert.Pre_KernelIdeal m) (c : Dev nD) :
    Cert.ReferenceIdeal.RefValue.refOut2 (m ((c.tc : Thread nD τ).loc main_arg2)) (m ((c.tc : Thread nD τ).loc main_arg5)) (m ((c.tc : Thread nD τ).loc main_arg14)) (m ((c.tc : Thread nD τ).loc main_arg15)) (m ((c.tc : Thread nD τ).loc main_arg16)) (m ((c.tc : Thread nD τ).loc main_arg17))
      = V7 m (Regs.outs m) c main_v29 :=
  rows_ext fun b p o =>
    (Cert.ReferenceIdeal.RefValue.ref2_apply _ _ _ _ _ _ (fun p => Cert.PreDecode.pid2_range m hpre c p) b p o).trans (KV.kv2 m hpre c b p o).symm

end Cert.Proof.Bridge

end
-- ==== Proof.lean ====
/-
  Three feature maps are sampled at 256 patch positions by a product with a one-hot table, each sampled column sent
  through two affine layers, a rectifier and a Euclidean normalisation; the reference gathers the same columns by index.
  With every patch index inside its map the table's row is the indicator of one position, so the two agree on the extended reals.
-/
import proofs.«419407_j15839839387757_3_alg».proof.Defs
import proofs.«419407_j15839839387757_3_alg».proof.Proof.Gen.Kernel
import proofs.«419407_j15839839387757_3_alg».proof.Proof.Gen.KernelIdeal
import proofs.«419407_j15839839387757_3_alg».proof.Proof.Gen.ReferenceIdeal
import proofs.«419407_j15839839387757_3_alg».proof.Proof.Gen.Pre_finite_inputs
import proofs.«419407_j15839839387757_3_alg».proof.Proof.KB.Regs
import proofs.«419407_j15839839387757_3_alg».proof.Proof.KI.Regs
import proofs.«419407_j15839839387757_3_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Regs.frame m ρ

theorem frame_kernelIdeal : Cert.frame_KernelIdeal := fun m ρ _ => Cert.KernelIdeal.Regs.frame m ρ

theorem frame_referenceIdeal : Cert.frame_ReferenceIdeal := fun m ρ _ =>
  (θ_run Cert.ReferenceIdeal.defs _ _).mono (fun _ h c => (h c).2.2.2) (Cert.ReferenceIdeal.RefValue.run_ref m ρ)

theorem preserves : Cert.preserves_Kernel_KernelIdeal := trivial

theorem algebraic : Cert.algebraic_KernelIdeal_ReferenceIdeal := by
  intro m ρ m' ρ' hpre hagree
  refine ⟨fun c => Cert.KernelIdeal.Gen.V7 m (Cert.KernelIdeal.Regs.outs m) c Cert.KernelIdeal.main_v9, fun c => Cert.KernelIdeal.Gen.V7 m (Cert.KernelIdeal.Regs.outs m) c Cert.KernelIdeal.main_v19, fun c => Cert.KernelIdeal.Gen.V7 m (Cert.KernelIdeal.Regs.outs m) c Cert.KernelIdeal.main_v29,
    Cert.KernelIdeal.Regs.run_values m ρ, ?_⟩
  refine (θ_run Cert.ReferenceIdeal.defs _ _).mono
    (fun r h c => ⟨(h c).1.trans ?_, (h c).2.1.trans ?_, (h c).2.2.1.trans ?_, (h c).2.2.2⟩)
    (Cert.ReferenceIdeal.RefValue.run_ref m' ρ')
  · rw [(hagree c).1, (hagree c).2.2.2.1, (hagree c).2.2.2.2.2.2.1, (hagree c).2.2.2.2.2.2.2.1, (hagree c).2.2.2.2.2.2.2.2.1, (hagree c).2.2.2.2.2.2.2.2.2.1]
    exact Cert.Proof.Bridge.bridge0 m hpre c
  · rw [(hagree c).2.1, (hagree c).2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1]
    exact Cert.Proof.Bridge.bridge1 m hpre c
  · rw [(hagree c).2.2.1, (hagree c).2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
    exact Cert.Proof.Bridge.bridge2 m hpre c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
